-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x2 : Shape := ⟨2, ![256, 2]⟩
abbrev S2 : Shape := ⟨1, ![2]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S512x256 .f32) (main_arg3 : FVec F S256x2 .f32) (main_arg4 : FVec F S2 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x2 .f32 := Host.absf main_arg3
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x2 : Shape := ⟨2, ![256, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S512x512 : Shape := ⟨2, ![512, 512]⟩
abbrev S512x1 : Shape := ⟨2, ![512, 1]⟩
abbrev S1x512 : Shape := ⟨2, ![1, 512]⟩
abbrev S8192x256 : Shape := ⟨2, ![8192, 256]⟩
abbrev S8192x2 : Shape := ⟨2, ![8192, 2]⟩
abbrev S512x2 : Shape := ⟨2, ![512, 2]⟩
abbrev S1x2 : Shape := ⟨2, ![1, 2]⟩

abbrev nBuf : Space → Nat
  | .hbm => 56
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x2, .f32⟩
  | .hbm, ⟨4, _⟩ => ⟨S2, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S1x8192, .f32⟩
  | .hbm, ⟨33, _⟩ => ⟨S8192x8192, .f32⟩
  | .hbm, ⟨34, _⟩ => ⟨S8192x256, .f32⟩
  | .hbm, ⟨35, _⟩ => ⟨S8192x256, .f32⟩
  | .hbm, ⟨36, _⟩ => ⟨S8192x2, .f32⟩
  | .hbm, ⟨37, _⟩ => ⟨S8192x2, .f32⟩
  | .hbm, ⟨38, _⟩ => ⟨S1x2, .f32⟩
  | .hbm, ⟨39, _⟩ => ⟨S8192x2, .f32⟩
  | .hbm, ⟨40, _⟩ => ⟨S8192x2, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x2, .f32⟩
  | .hbm, ⟨48, _⟩ => ⟨S8192x2, .f32⟩
  | .hbm, ⟨49, _⟩ => ⟨S8192x2, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S8192x2, .f32⟩
  | .hbm, ⟨55, _⟩ => ⟨S8192x2, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x512, .f32⟩
  | .local _ .vmem, ⟨25, _⟩ => ⟨S512x512, .f32⟩
  | .local _ .vmem, ⟨26, _⟩ => ⟨S512x2, .f32⟩
  | .local _ .vmem, ⟨27, _⟩ => ⟨S512x2, .f32⟩
  | .local _ .vmem, ⟨28, _⟩ => ⟨S512x2, .f32⟩
  | .local _ .vmem, ⟨29, _⟩ => ⟨S512x2, .f32⟩
  | .local _ .vmem, ⟨30, _⟩ => ⟨S512x2, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_v9 : Ref sig .tc := ⟨.hbm, 27, rfl⟩
abbrev main_cst_4 : Ref sig .tc := ⟨.hbm, 28, rfl⟩
abbrev main_call3_v0 : Ref sig .tc := ⟨.hbm, 29, rfl⟩
abbrev main_call3_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call4_cst : Ref sig .tc := ⟨.hbm, 41, rfl⟩
abbrev main_call4_v0 : Ref sig .tc := ⟨.hbm, 42, rfl⟩
abbrev main_call4_cst_0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_cst_1 : Ref sig .tc := ⟨.hbm, 50, rfl⟩
abbrev main_call4_v7 : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_v20 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨3, ![16, 16, 16], ![false, false, false]⟩

def k0_cond2 (i : grid0.Coords) : BitVec 1 :=
  let arg2 : BitVec 32 := BitVec.ofNat 32 (i 2).val
  let c15_i32 : BitVec 32 := 15#32
  let v29 : BitVec 1 := Scalar.cmpi .eq arg2 c15_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  shapeCasts_S8192_S8192x1 : S8192.ShapeCasts S8192x1
  reducesTo_S8192x8192_S8192_d0 : S8192x8192.ReducesTo [0] S8192
  shapeCasts_S8192_S1x8192 : S8192.ShapeCasts S1x8192
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  bitsLt_bf16_f32 : FTy.bits .bf16 < FTy.bits .f32
  iota_S512x512_d0_w32 : S512x512.Iotas .tc 32 [0]
  iota_S512x512_d1_w32 : S512x512.Iotas .tc 32 [1]
  natLt_1_32 : 1 < 32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2_S512x2_0_0 : ∀ a, (![0, 0] : Fin 2 → Nat) a + S512x2.size a ≤ S512x2.size a
  h_S512x2 : 0 < S512x2.numel
  shapeCasts_S512x2_S512x2 : S512x2.ShapeCasts S512x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  dot_S512x512_S512x512_S512x512_1_0_0_1_n_n_wf : DotDims.WF S512x512 S512x512 S512x512 [1] [0] [0] [1] [] []
  dot_S8192x512_S512x256_S8192x256_1_0_0_1_n_n_wf : DotDims.WF S8192x512 S512x256 S8192x256 [1] [0] [0] [1] [] []
  dot_S512x512_S512x256_S512x256_1_0_0_1_n_n_wf : DotDims.WF S512x512 S512x256 S512x256 [1] [0] [0] [1] [] []
  dot_S8192x256_S256x2_S8192x2_1_0_0_1_n_n_wf : DotDims.WF S8192x256 S256x2 S8192x2 [1] [0] [0] [1] [] []
  dot_S512x512_S512x2_S512x2_1_0_0_1_n_n_wf : DotDims.WF S512x512 S512x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x8192.size a
  hwx0_7 : ∀ i : grid0.Coords, EltTy.bits .f32 = 32 ∨ (Rect.block (s := S8192x8192) S512x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .f32 = 32 ∨ (Rect.block (s := S8192x256) S512x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2.size a ≤ S8192x2.size a
  hwx2_1 : ∀ i : grid2.Coords, EltTy.bits .f32 = 32 ∨ (Rect.block (s := S8192x2) S512x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2.size a ≤ S8192x2.size a
  hwx2_2 : ∀ i : grid2.Coords, EltTy.bits .f32 = 32 ∨ (Rect.block (s := S8192x2) S512x2.size (cc2_transform_2 i) (hinb2_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S512x512_S512x2_S512x2_1_0_0_1_n_n : DotDims S512x512 S512x2 S512x2 where
  lhsContracting := [1]
  rhsContracting := [0]
  lhsNonContracting := [0]
  rhsNonContracting := [1]
  lhsBatch := []
  rhsBatch := []
  wf := dot_S512x512_S512x2_S512x2_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v12) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v12) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S512x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S512x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x2 : Shape := ⟨2, ![256, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S8192x2 : Shape := ⟨2, ![8192, 2]⟩
abbrev S1x2 : Shape := ⟨2, ![1, 2]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x2, .f32⟩
  | .hbm, ⟨4, _⟩ => ⟨S2, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .i1⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x2, .f32⟩
  | .hbm, ⟨56, _⟩ => ⟨S8192x2, .f32⟩
  | .hbm, ⟨57, _⟩ => ⟨S1x2, .f32⟩
  | .hbm, ⟨58, _⟩ => ⟨S8192x2, .f32⟩
  | .hbm, ⟨59, _⟩ => ⟨S8192x2, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1, .f32⟩
  | .hbm, ⟨66, _⟩ => ⟨S8192x2, .f32⟩
  | .hbm, ⟨67, _⟩ => ⟨S8192x2, .f32⟩
  | .hbm, ⟨68, _⟩ => ⟨S8192x2, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1, .f32⟩
  | .hbm, ⟨73, _⟩ => ⟨S8192x2, .f32⟩
  | .hbm, ⟨74, _⟩ => ⟨S8192x2, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_v8 : Ref sig .tc := ⟨.hbm, 26, rfl⟩
abbrev main_cst_4 : Ref sig .tc := ⟨.hbm, 27, rfl⟩
abbrev main_call3_v0 : Ref sig .tc := ⟨.hbm, 28, rfl⟩
abbrev main_call3_v1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_cst : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_call5_cst_0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_v6 : Ref sig .tc := ⟨.hbm, 68, rfl⟩
abbrev main_call5_cst_1 : Ref sig .tc := ⟨.hbm, 69, rfl⟩
abbrev main_call5_v7 : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_v35 : Ref sig .tc := ⟨.hbm, 74, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  reducesTo_S8192x8192_S8192_d0 : S8192x8192.ReducesTo [0] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192x256 : S_.BroadcastsInDim S8192x256 (![] : Fin 0 → Fin S8192x256.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192x1_S8192x2_0_1 : S8192x1.BroadcastsInDim S8192x2 (![0, 1] : Fin 2 → Fin S8192x2.rank)
  dot_S8192x8192_S8192x8192_S8192x8192_1_0_0_1_n_n_wf : DotDims.WF S8192x8192 S8192x8192 S8192x8192 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x2_S8192x2_1_0_0_1_n_n_wf : DotDims.WF S8192x256 S256x2 S8192x2 [1] [0] [0] [1] [] []
  dot_S8192x8192_S8192x2_S8192x2_1_0_0_1_n_n_wf : DotDims.WF S8192x8192 S8192x2 S8192x2 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf

class Facts : Prop extends Facts₀ where

variable [Facts]
-- ==== Proof.K.R0Runs.lean ====
import proofs.«127071_j953482740188_1_alg».proof.Proof.Gen.Kernel.Launch
import proofs.«127071_j953482740188_1_alg».proof.Proof.Gen.Kernel.Skeleton
import proofs.«127071_j953482740188_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem idleAt0_7 (i : grid0.Coords) (h : ¬cond0_1 i) : cfg0.idle 7 i = true := by
  show (!(k0_cond2 i == 1#1)) = true
  rw [beq_eq_false_iff_ne.mpr h]; rfl
theorem liveAt0_7 (i : grid0.Coords) (h : cond0_1 i) : cfg0.idle 7 i = false := by
  show (!(k0_cond2 i == 1#1)) = false
  rw [beq_iff_eq.mpr h]; rfl
theorem noFlush0_7 (t : Fin cfg0.N) (h : ¬cond0_1 (grid0.coords t)) : (cfg0.win 7).flush t = false :=
  Bool.eq_false_iff.mpr fun hf => h ((hcond0_1 t).mpr ((flush0_7 t).mp hf))

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev scM0_0 : Memref sig .tc .vmem S512x512 .f32 := Memref.whole cc0_scratch0

abbrev Rest0 (c : Dev nD) : sProp 𝕄 :=
  Pipeline.scopedRestBut (Ix := Unit) (Name := ℕ) (U := UR sig nD τ) (Lvl := ℕ) (Val := Elt F) spec0 c [cc0_scratch0]

-- the scoped buffers split at the call's own scratch, which is whole
theorem PhiA0_eq (c : Dev nD) :
    (Pipeline.ΦA spec0 c : sProp 𝕄)
      = iprop(iprop(iprop((∃ d, owns (c : Thread nD τ) scM0_0 fullShare d)) ∗ Rest0 c) ∗ (∃ r, prngReg c r)) := by
  unfold Pipeline.ΦA; rw [Pipeline.scopedRest_split_of_list spec0 c [cc0_scratch0] (by decide) (by decide)]; simp only [scM0_0, owns_whole]; try rfl

theorem hz_r0 : (![0, 0] : Fin 2 → Nat) = fun _ => 0 := funext fun a => by fin_cases a <;> rfl

-- a store of the whole block, made last, decides what the buffer reads
theorem read_store0 {S : Shape} {κ : Kind} {sp : Space} (v : View sig κ sp S .f32) (f : v.ty.Contents (Elt F)) {off : Fin S.rank → Nat}
    (h : off = fun _ => 0) (inb : ∀ a, off a + S.size a ≤ S.size a) (w : Vec F S .f32) (L : List (View.Piece (Elt F) S .f32)) :
    v.read (Elt F) (v.writes (Elt F) f (⟨Rect.unit off S.size inb, w⟩ :: L)) = w :=
  (View.read_writes_eq_canon _ _ _ fun y => ⟨_, List.mem_cons.mpr (.inl rfl), View.mem_set_unit_zero h inb y⟩).trans
    (View.canon_cons_unit_zero h inb w L)

end Cert.Kernel.Hand

end
-- ==== Proof.K.R0RunA.lean ====
import proofs.«127071_j953482740188_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
-- a block's first step: the accumulator is zeroed and this step's product added; nothing is stored to the output
theorem run0_A (c : Dev nD) (i : grid0.Coords) {arg3 arg4 arg5 arg10 arg11 : Memref sig .tc .vmem S512x512 .f32} {arg6 arg8 : Memref sig .tc .vmem S512x1 .f32} {arg7 arg9 : Memref sig .tc .vmem S1x512 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
    (hc0 : cond0_0 i) (hc1 : ¬cond0_1 i) (x0 x1 x2 : Vec F S512x512 .f32) (x3 : Vec F S512x1 .f32) (x4 : Vec F S1x512 .f32) (x5 : Vec F S512x1 .f32) (x6 : Vec F S1x512 .f32) (xi7 : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ owns (c : Thread nD τ) arg10 fullShare xi7 ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare xi7 ∗ owns (c : Thread nD τ) arg11 fullShare (k0_pay2 x3 x0 x4 x5 x1 x6 k0_pay1)) -∗ K ⟨⟩))
      ⊢ wp frame (wpE (defs₀ (F := F)) Variants.none c none) E (cc0__adjf_kernel i arg3 harg3 arg4 harg4 arg5 harg5 arg6 harg6 arg7 harg7 arg8 harg8 arg9 harg9 arg10 harg10 arg11 harg11) K := by
  simp only [cc0__adjf_kernel_eq_skeleton]; unfold cc0__adjf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr; swap; · iexact HS0
  ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]

end Cert.Kernel.Hand

end
-- ==== Proof.K.R0RunB.lean ====
import proofs.«127071_j953482740188_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
-- a middle step: this step's product is added to the accumulator; nothing is stored to the output
theorem run0_B (c : Dev nD) (i : grid0.Coords) {arg3 arg4 arg5 arg10 arg11 : Memref sig .tc .vmem S512x512 .f32} {arg6 arg8 : Memref sig .tc .vmem S512x1 .f32} {arg7 arg9 : Memref sig .tc .vmem S1x512 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
    (hc0 : ¬cond0_0 i) (hc1 : ¬cond0_1 i) (x0 x1 x2 : Vec F S512x512 .f32) (x3 : Vec F S512x1 .f32) (x4 : Vec F S1x512 .f32) (x5 : Vec F S512x1 .f32) (x6 : Vec F S1x512 .f32) (xs0 xi7 : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ owns (c : Thread nD τ) arg10 fullShare xi7 ∗ owns (c : Thread nD τ) arg11 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare xi7 ∗ owns (c : Thread nD τ) arg11 fullShare (k0_pay2 x3 x0 x4 x5 x1 x6 xs0)) -∗ K ⟨⟩))
      ⊢ wp frame (wpE (defs₀ (F := F)) Variants.none c none) E (cc0__adjf_kernel i arg3 harg3 arg4 harg4 arg5 harg5 arg6 harg6 arg7 harg7 arg8 harg8 arg9 harg9 arg10 harg10 arg11 harg11) K := by
  simp only [cc0__adjf_kernel_eq_skeleton]; unfold cc0__adjf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr; swap; · iexact HS0
  ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]

end Cert.Kernel.Hand

end
-- ==== Proof.K.R0RunC.lean ====
import proofs.«127071_j953482740188_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
-- a block's last step: this step's product is added to the accumulator, and the output is stored from it
theorem run0_C (c : Dev nD) (i : grid0.Coords) {arg3 arg4 arg5 arg10 arg11 : Memref sig .tc .vmem S512x512 .f32} {arg6 arg8 : Memref sig .tc .vmem S512x1 .f32} {arg7 arg9 : Memref sig .tc .vmem S1x512 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
    (hc0 : ¬cond0_0 i) (hc1 : cond0_1 i) (x0 x1 x2 : Vec F S512x512 .f32) (x3 : Vec F S512x1 .f32) (x4 : Vec F S1x512 .f32) (x5 : Vec F S512x1 .f32) (x6 : Vec F S1x512 .f32) (xs0 : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay3 i x3 x2 x6 (k0_pay2 x3 x0 x4 x5 x1 x6 xs0)) ∗ owns (c : Thread nD τ) arg11 fullShare (k0_pay2 x3 x0 x4 x5 x1 x6 xs0)) -∗ K ⟨⟩))
      ⊢ wp frame (wpE (defs₀ (F := F)) Variants.none c none) E (cc0__adjf_kernel i arg3 harg3 arg4 harg4 arg5 harg5 arg6 harg6 arg7 harg7 arg8 harg8 arg9 harg9 arg10 harg10 arg11 harg11) K := by
  simp only [cc0__adjf_kernel_eq_skeleton]; unfold cc0__adjf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]
  iexists _; isplitr; swap; · iexact HS0
  ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]

end Cert.Kernel.Hand

end
-- ==== Proof.K.R0Frame.lean ====
import proofs.«127071_j953482740188_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- one step at point `t`: the accumulator `s` plus the product of the point's two scaled blocks
def acc0 (c : Dev nD) (t : Fin cfg0.N) (s : Vec F S512x512 .f32) : Vec F S512x512 .f32 :=
  k0_pay2 (iblk0 V c 3 t) (iblk0 V c 0 t) (iblk0 V c 4 t) (iblk0 V c 5 t) (iblk0 V c 1 t) (iblk0 V c 6 t) s

-- the accumulator after point `n`: a block's first step starts from zero, a later one from the step before
def scr0 (c : Dev nD) : (n : ℕ) → n < cfg0.N → Vec F S512x512 .f32
  | 0, h => acc0 V c ⟨0, h⟩ k0_pay1
  | n + 1, h => acc0 V c ⟨n + 1, h⟩ (if (n + 1) % 16 = 0 then k0_pay1 else scr0 c n (Nat.lt_of_succ_lt h))

theorem scr0_eq (c : Dev nD) (t : Fin cfg0.N) :
    scr0 V c t.val t.isLt = acc0 V c t (if t.val % 16 = 0 then k0_pay1 else scr0 V c (t.val - 1) (Nat.lt_of_le_of_lt (Nat.sub_le _ _) t.isLt)) := by
  obtain ⟨n, hn⟩ := t
  cases n with
  | zero => rfl
  | succ n => rfl

-- what the last step of a block stores
def out0 (c : Dev nD) (t : Fin cfg0.N) : Vec F S512x512 .f32 :=
  k0_pay3 (grid0.coords t) (iblk0 V c 3 t) (iblk0 V c 2 t) (iblk0 V c 6 t) (scr0 V c t.val t.isLt)

-- before position `n` the accumulator is what the step before left, unless a block begins there
def Phi0 (c : Dev nD) (n : ℕ) : sProp 𝕄 :=
  iprop(iprop(iprop(∃ d, ⌜∀ h : n - 1 < cfg0.N, n % 16 ≠ 0 → d = scr0 V c (n - 1) h⌝ ∗ owns (c : Thread nD τ) scM0_0 fullShare d) ∗ Rest0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c t
  Φ t := Phi0 V c t.val
  q w := match w with
    | ⟨0, _⟩ => fullShare.left
    | ⟨1, _⟩ => fullShare.right.left
    | ⟨2, _⟩ => fullShare.right.right
    | ⟨3, _⟩ => fullShare.left
    | ⟨4, _⟩ => fullShare.left
    | ⟨5, _⟩ => fullShare.right
    | ⟨6, _⟩ => fullShare.right
    | ⟨7, _⟩ => fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = match w with
    | ⟨0, _⟩ => fullShare.left
    | ⟨1, _⟩ => fullShare.right.left
    | ⟨2, _⟩ => fullShare.right.right
    | ⟨3, _⟩ => fullShare.left
    | ⟨4, _⟩ => fullShare.left
    | ⟨5, _⟩ => fullShare.right
    | ⟨6, _⟩ => fullShare.right
    | ⟨7, _⟩ => fullShare := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; dsimp only [dat0]; try rfl) t d).trans
    (by unfold Dat.fetched Dat.blockOf; dsimp only [dat0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun _ => by unfold Dat.blockOf; dsimp only [dat0]; try rfl) t d).trans
    (by unfold Dat.fetched Dat.blockOf; dsimp only [dat0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun _ => by unfold Dat.blockOf; dsimp only [dat0]; try rfl) t d).trans
    (by unfold Dat.fetched Dat.blockOf; dsimp only [dat0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun _ => by unfold Dat.blockOf; dsimp only [dat0]; try rfl) t d).trans
    (by unfold Dat.fetched Dat.blockOf; dsimp only [dat0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun _ => by unfold Dat.blockOf; dsimp only [dat0]; try rfl) t d).trans
    (by unfold Dat.fetched Dat.blockOf; dsimp only [dat0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun _ => by unfold Dat.blockOf; dsimp only [dat0]; try rfl) t d).trans
    (by unfold Dat.fetched Dat.blockOf; dsimp only [dat0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun _ => by unfold Dat.blockOf; dsimp only [dat0]; try rfl) t d).trans
    (by unfold Dat.fetched Dat.blockOf; dsimp only [dat0]; try rfl)

theorem live0 {c : Dev nD} (dat : Dat τ (Elt F) Unit ℕ (UR sig nD τ) ℕ cfg0 c) (w : Fin cfg0.W) (t : Fin cfg0.N) (h : cfg0.idle w (grid0.coords t) = false) :
    dat.leavesExact w t = owns (c : Thread nD τ) ((cfg0.win w).stage (cfg0.slots t w)) fullShare (dat.after w t) := by
  unfold Dat.leavesExact; rw [h]

theorem leaves0_0 (c : Dev nD) (t : Fin cfg0.N) : (dat0 V c).leavesExact 0 t = owns (c : Thread nD τ) (ms0_0 t) fullShare (iblk0 V c 0 t) :=
  (live0 _ 0 t rfl).trans (by dsimp only [dat0])
theorem leaves0_1 (c : Dev nD) (t : Fin cfg0.N) : (dat0 V c).leavesExact 1 t = owns (c : Thread nD τ) (ms0_1 t) fullShare (iblk0 V c 1 t) :=
  (live0 _ 1 t rfl).trans (by dsimp only [dat0])
theorem leaves0_2 (c : Dev nD) (t : Fin cfg0.N) : (dat0 V c).leavesExact 2 t = owns (c : Thread nD τ) (ms0_2 t) fullShare (iblk0 V c 2 t) :=
  (live0 _ 2 t rfl).trans (by dsimp only [dat0])
theorem leaves0_3 (c : Dev nD) (t : Fin cfg0.N) : (dat0 V c).leavesExact 3 t = owns (c : Thread nD τ) (ms0_3 t) fullShare (iblk0 V c 3 t) :=
  (live0 _ 3 t rfl).trans (by dsimp only [dat0])
theorem leaves0_4 (c : Dev nD) (t : Fin cfg0.N) : (dat0 V c).leavesExact 4 t = owns (c : Thread nD τ) (ms0_4 t) fullShare (iblk0 V c 4 t) :=
  (live0 _ 4 t rfl).trans (by dsimp only [dat0])
theorem leaves0_5 (c : Dev nD) (t : Fin cfg0.N) : (dat0 V c).leavesExact 5 t = owns (c : Thread nD τ) (ms0_5 t) fullShare (iblk0 V c 5 t) :=
  (live0 _ 5 t rfl).trans (by dsimp only [dat0])
theorem leaves0_6 (c : Dev nD) (t : Fin cfg0.N) : (dat0 V c).leavesExact 6 t = owns (c : Thread nD τ) (ms0_6 t) fullShare (iblk0 V c 6 t) :=
  (live0 _ 6 t rfl).trans (by dsimp only [dat0])
theorem leaves0_7 (c : Dev nD) (t : Fin cfg0.N) (h : t.val % 16 = 15) : (dat0 V c).leavesExact 7 t = owns (c : Thread nD τ) (ms0_7 t) fullShare (out0 V c t) :=
  (live0 _ 7 t (liveAt0_7 _ ((hcond0_1 t).mpr h))).trans (by dsimp only [dat0])

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

-- at every point the case selected by its position in the block applies; the accumulator passes through the invariant
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [leaves0_0, leaves0_1, leaves0_2, leaves0_3, leaves0_4, leaves0_5, leaves0_6]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  unfold Phi0
  by_cases h1 : t.val % 16 = 15
  · have h0 : ¬t.val % 16 = 0 := by omega
    rw [leaves0_7 V c t h1]; unfold out0; rw [scr0_eq V c t, if_neg h0]; unfold acc0
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hs (Nat.lt_of_le_of_lt (Nat.sub_le _ _) t.isLt) h0
    iapply run0_C c (grid0.coords t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ Set.univ _
    iframe H0 H1 H2 H3 H4 H5 H6 HS
    isplitl [H7]; · iexists _; iexact H7
    iintro ⟨H0, H1, H2, H3, H4, H5, H6, H7, HS⟩
    iframe HR Hg Ho H0 H1 H2 H3 H4 H5 H6 H7
    iexists _; isplitr; swap; · iexact HS
    ipureintro; intro _ h; exact absurd (by omega) h
  · have hc1 : ¬cond0_1 (grid0.coords t) := fun h => h1 ((hcond0_1 t).mp h)
    rw [Dat.leavesExact_idle (dat0 V c) 7 t (idleAt0_7 _ hc1) (noFlush0_7 t hc1)]
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h0 : t.val % 16 = 0
    · iapply run0_A c (grid0.coords t) ((hcond0_0 t).mpr h0) hc1 (iblk0 V c 0 t) (iblk0 V c 1 t) (iblk0 V c 2 t) (iblk0 V c 3 t) (iblk0 V c 4 t) (iblk0 V c 5 t) (iblk0 V c 6 t) _ Set.univ _
      iframe H0 H1 H2 H3 H4 H5 H6 H7
      isplitl [HS]; · iexists _; iexact HS
      iintro ⟨H0, H1, H2, H3, H4, H5, H6, H7, HS⟩
      iframe HR Hg Ho H0 H1 H2 H3 H4 H5 H6
      isplitl [HS]
      · iexists _; isplitr; swap; · iexact HS
        ipureintro; intro _ _; show _ = scr0 V c t.val t.isLt; rw [scr0_eq V c t, if_pos h0]; rfl
      iexists _; iexact H7
    · obtain rfl := hs (Nat.lt_of_le_of_lt (Nat.sub_le _ _) t.isLt) h0
      iapply run0_B c (grid0.coords t) (fun h => h0 ((hcond0_0 t).mp h)) hc1 (iblk0 V c 0 t) (iblk0 V c 1 t) (iblk0 V c 2 t) (iblk0 V c 3 t) (iblk0 V c 4 t) (iblk0 V c 5 t) (iblk0 V c 6 t) _ _ Set.univ _
      iframe H0 H1 H2 H3 H4 H5 H6 H7 HS
      iintro ⟨H0, H1, H2, H3, H4, H5, H6, H7, HS⟩
      iframe HR Hg Ho H0 H1 H2 H3 H4 H5 H6
      isplitl [HS]
      · iexists _; isplitr; swap; · iexact HS
        ipureintro; intro _ _; show _ = scr0 V c t.val t.isLt; rw [scr0_eq V c t, if_neg h0]; rfl
      iexists _; iexact H7

theorem body_obligation0 (c : Dev nD) : BodyObligation (dat0 (F := F) V c) (defs₀ (F := F)) Variants.none () Set.univ := fun t => by
  rw [bigSep_W0, bigSep_W0]
  exact sound_body0 V c t

-- at the first position nothing is asked of the accumulator
theorem hin0 (c : Dev nD) : Pipeline.ΦA spec0 c ⊢ (dat0 V c).Φ 0 := by
  rw [show (dat0 V c).Φ 0 = Phi0 V c 0 from rfl, PhiA0_eq]; unfold Phi0
  iintro ⟨⟨⟨%d, HS⟩, HR⟩, Hg⟩
  iframe HR Hg
  iexists d; isplitr; swap; · iexact HS
  ipureintro; intro _ h; exact absurd rfl h

-- the accumulator's contents are forgotten
theorem hout0 (c : Dev nD) : (dat0 V c).Φ (Fin.last cfg0.N) ⊢ Pipeline.ΦA spec0 c := by
  rw [show (dat0 V c).Φ (Fin.last cfg0.N) = Phi0 V c cfg0.N from rfl, PhiA0_eq]; unfold Phi0
  iintro ⟨⟨⟨%d, -, HS⟩, HR⟩, Hg⟩
  iframe HR Hg
  iexists d; iexact HS

end Cert.Kernel.Hand

end
-- ==== Proof.K.R1Runs.lean ====
import proofs.«127071_j953482740188_1_alg».proof.Proof.Gen.Kernel.Launch
import proofs.«127071_j953482740188_1_alg».proof.Proof.Gen.Kernel.Skeleton
import proofs.«127071_j953482740188_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem idle1_2 : ∀ t : Fin cfg1.N, ¬t.val % 16 = 15 → cfg1.idle 2 (grid1.coords t) = true ∧ (cfg1.win 2).flush t = false := by decide +kernel
theorem live1_2 : ∀ t : Fin cfg1.N, t.val % 16 = 15 → cfg1.idle 2 (grid1.coords t) = false := by decide +kernel

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev scM1_0 : Memref sig .tc .vmem S512x256 .f32 := Memref.whole cc1_scratch0
abbrev VS1_0 : View sig .tc .vmem S512x256 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.R1RunA.lean ====
import proofs.«127071_j953482740188_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (hc0 : cond1_0 i) (hc1 : ¬cond1_1 i)
    (x0 : Vec F S512x512 .f32) (x1 : Vec F S512x256 .f32) :
    Σ' (L2 : List (View.Piece (Elt F) S512x256 .f32)), { LS0 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunB.lean ====
import proofs.«127071_j953482740188_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (hc0 : ¬cond1_0 i) (hc1 : ¬cond1_1 i)
    (x0 : Vec F S512x512 .f32) (x1 : Vec F S512x256 .f32) (xs0 : Vec F S512x256 .f32) :
    Σ' (L2 : List (View.Piece (Elt F) S512x256 .f32)), { LS0 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunC.lean ====
import proofs.«127071_j953482740188_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_C (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (hc0 : ¬cond1_0 i) (hc1 : cond1_1 i)
    (x0 : Vec F S512x512 .f32) (x1 : Vec F S512x256 .f32) (xs0 : Vec F S512x256 .f32) :
    Σ' (L2 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R1Frame.lean ====
import proofs.«127071_j953482740188_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rest1 (c : Dev nD) : sProp 𝕄 :=
  Pipeline.scopedRestBut (Ix := Unit) (Name := ℕ) (U := UR sig nD τ) (Lvl := ℕ) (Val := Elt F) spec1 c [cc1_scratch0]

def rd1 (L : List (View.Piece (Elt F) S512x256 .f32)) : Vec F S512x256 .f32 :=
  VS1_0.read (Elt F) (VS1_0.writes (Elt F) VS1_0.junk L)

-- pieces that tile a buffer cover it, so what it reads as afterwards does not depend on what it held
theorem owns_wrote1 (c : Dev nD) (M : Memref sig .tc .vmem S512x256 .f32) (L : List (View.Piece (Elt F) S512x256 .f32))
    (h : View.Piece.tiledL L S512x256.size = true) :
    iprop(∃ f, M.view.loc (c : Thread nD τ) ↦[M.view.set]{fullShare} M.view.writes (Elt F) f L) ⊢ (owns (c : Thread nD τ) M fullShare (rd1 L) : sProp 𝕄) := by
  iintro ⟨%f, H⟩
  unfold owns; iexists _; isplitr
  swap; · iexact H
  ipureintro; exact View.read_writes_of_cover _ _ _ _ _ (View.cover_of_tiledL L _ h)

section
variable {c : Dev nD} {i : grid1.Coords} {a2 : Memref sig .tc .vmem S512x512 .f32} {h2 : a2.IsWhole} {a3 a4 a5 : Memref sig .tc .vmem S512x256 .f32} {h3 : a3.IsWhole} {h4 : a4.IsWhole} {h5 : a5.IsWhole}
  {x0 : Vec F S512x512 .f32} {x1 xs : Vec F S512x256 .f32}

theorem tiledA1 {hc0 : cond1_0 i} {hc1 : ¬cond1_1 i} : View.Piece.tiledL (kernelRun1_A c i a2 h2 a3 h3 a4 h4 a5 h5 hc0 hc1 x0 x1).2.1 S512x256.size = true := by sl_kernel_rfl
theorem tiledB1 {hc0 : ¬cond1_0 i} {hc1 : ¬cond1_1 i} : View.Piece.tiledL (kernelRun1_B c i a2 h2 a3 h3 a4 h4 a5 h5 hc0 hc1 x0 x1 xs).2.1 S512x256.size = true := by sl_kernel_rfl
theorem tiledC1 {hc0 : ¬cond1_0 i} {hc1 : cond1_1 i} : View.Piece.tiledL (kernelRun1_C c i a2 h2 a3 h3 a4 h4 a5 h5 hc0 hc1 x0 x1 xs).2.1 S512x256.size = true := by sl_kernel_rfl
theorem tiledO1 {hc0 : ¬cond1_0 i} {hc1 : cond1_1 i} : View.Piece.tiledL (kernelRun1_C c i a2 h2 a3 h3 a4 h4 a5 h5 hc0 hc1 x0 x1 xs).1 S512x256.size = true := by sl_kernel_rfl
end

variable (V : (c : Dev nD) → (b : Ref sig .tc) → Buf (Elt F) ((c : Thread nD τ).loc b))

section
variable (c : Dev nD) (t : Fin cfg1.N)

def runA1 (h0 : t.val % 16 = 0) :=
  kernelRun1_A c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t)
def runB1 (h0 : ¬t.val % 16 = 0) (h1 : ¬t.val % 16 = 15) :=
  kernelRun1_B c (grid1.coords t) (ms1_0 t) (hs1_0 t) (ms1_1 t) (hs1_1 t) (ms1_2 t) (hs1_2 t) scM1_0 (Memref.isWhole_whole _) (mt (hcond1_0 t).mp h0) (mt (hcond1_1 t).mp h1) (iblk1 V c 0 t) (iblk1 V c 1 t)
def runC1 (h1 : t.val % 16 = 15) :=
  kernelRun1_C c (grid1.coords t) (ms1_0 t) (hs1_0 t) (ms1_1 t) (hs1_1 t) (ms1_2 t) (hs1_2 t) scM1_0 (Memref.isWhole_whole _) (fun h => by have := (hcond1_0 t).mp h; omega) ((hcond1_1 t).mpr h1) (iblk1 V c 0 t) (iblk1 V c 1 t)

def step1 (xs : Vec F S512x256 .f32) : Vec F S512x256 .f32 :=
  rd1 (if h0 : t.val % 16 = 0 then (runA1 V c t h0).2.1 else if h1 : t.val % 16 = 15 then (runC1 V c t h1 xs).2.1 else (runB1 V c t h0 h1 xs).2.1)
end

def acc1 (c : Dev nD) : (n : ℕ) → n ≤ cfg1.N → Vec F S512x256 .f32
  | 0, _ => rd1 []
  | n + 1, h => step1 V c ⟨n, h⟩ (acc1 c n (Nat.le_of_lt h))

def out1 (c : Dev nD) (t : Fin cfg1.N) : Vec F S512x256 .f32 :=
  if h1 : t.val % 16 = 15 then rd1 (runC1 V c t h1 (acc1 V c t.val (Nat.le_of_lt t.isLt))).1 else rd1 []

def PhiS1 (c : Dev nD) : (n : ℕ) → n ≤ cfg1.N → sProp 𝕄
  | 0, _ => Pipeline.ΦA spec1 c
  | n + 1, h => iprop(iprop(iprop(owns (c : Thread nD τ) scM1_0 fullShare (acc1 V c (n + 1) h)) ∗ rest1 (F := F) c) ∗ (∃ r, prngReg c r))

theorem PhiS1_any (c : Dev nD) (n : ℕ) (h : n ≤ cfg1.N) :
    PhiS1 V c n h ⊢ iprop(iprop(iprop((∃ d, owns (c : Thread nD τ) scM1_0 fullShare d)) ∗ rest1 (F := F) c) ∗ (∃ r, prngReg c r)) := by
  cases n with
  | zero => rw [← PhiA1_eq]; exact .rfl
  | succ n => unfold PhiS1; iintro ⟨⟨HS0, HR⟩, Hg⟩; iframe HR Hg; iexists _; iexact HS0

theorem PhiS1_pos (c : Dev nD) (n : ℕ) (h : n ≤ cfg1.N) (hz : n ≠ 0) :
    PhiS1 V c n h = iprop(iprop(iprop(owns (c : Thread nD τ) scM1_0 fullShare (acc1 V c n h)) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d

theorem leaves1_0 (c : Dev nD) (t : Fin cfg1.N) : (dat1 V c).leavesExact 0 t = owns (c : Thread nD τ) (ms1_0 t) fullShare (iblk1 V c 0 t) := by
  rw [show iblk1 V c 0 t = (dat1 V c).after 0 t from rfl]
theorem leaves1_1 (c : Dev nD) (t : Fin cfg1.N) : (dat1 V c).leavesExact 1 t = owns (c : Thread nD τ) (ms1_1 t) fullShare (iblk1 V c 1 t) := by
  rw [show iblk1 V c 1 t = (dat1 V c).after 1 t from rfl]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, leaves1_0, leaves1_1]
  rw [show (dat1 V c).owesAt () t.succ = (dat1 V c).owesAt () t.castSucc from rfl,
    show (dat1 V c).Φ t.succ = iprop(iprop(iprop(owns (c : Thread nD τ) scM1_0 fullShare (step1 V c t (acc1 V c t.val (Nat.le_of_lt t.isLt)))) ∗ rest1 (F := F) c) ∗ (∃ r, prngReg c r)) from rfl]
  unfold step1
  by_cases h1 : t.val % 16 = 15
  · have h0 : ¬t.val % 16 = 0 := by omega
    rw [dif_neg h0, dif_pos h1, show (dat1 V c).leavesExact 2 t = owns (c : Thread nD τ) (ms1_2 t) fullShare (out1 V c t) from by
      unfold Dat.leavesExact; rw [live1_2 t h1]; rfl]
    unfold out1
    rw [dif_pos h1, show (dat1 V c).Φ t.castSucc = PhiS1 V c t.val (Nat.le_of_lt t.isLt) from rfl, PhiS1_pos V c _ _ (by omega)]
    iintro ⟨⟨⟨HS0, HR⟩, Hg⟩, Ho, ⟨%d0, H0⟩, ⟨%d1, H1⟩, ⟨%d2, H2⟩⟩
    iapply ((runC1 V c t h1 _).2.2 Set.univ _)
    iframe H0 H1 HS0
    isplitl [H2]; · iexists _; iexact H2
    iintro ⟨H0, H1, H2, HS0⟩
    iframe HR Hg Ho H0 H1
    isplitl [HS0]
    · iapply (owns_wrote1 c _ _ tiledC1); iexact HS0
    iapply (owns_wrote1 c _ _ tiledO1); iexact H2
  · rw [Dat.leavesExact_idle (dat1 V c) 2 t (idle1_2 t h1).1 (idle1_2 t h1).2]
    by_cases h0 : t.val % 16 = 0
    · rw [dif_pos h0]
      refine (sep_mono_left (PhiS1_any V c _ _)).trans ?_
      iintro ⟨⟨⟨HS0, HR⟩, Hg⟩, Ho, ⟨%d0, H0⟩, ⟨%d1, H1⟩, ⟨%d2, H2⟩⟩
      iapply ((runA1 V c t h0).2.2 _ Set.univ _)
      iframe H0 H1 H2 HS0
      iintro ⟨H0, H1, H2, HS0⟩
      iframe HR Hg Ho H0 H1
      isplitl [HS0]
      · iapply (owns_wrote1 c _ _ tiledA1); iexact HS0
      iexists _; iexact H2
    · rw [dif_neg h0, dif_neg h1, show (dat1 V c).Φ t.castSucc = PhiS1 V c t.val (Nat.le_of_lt t.isLt) from rfl, PhiS1_pos V c _ _ (by omega)]
      iintro ⟨⟨⟨HS0, HR⟩, Hg⟩, Ho, ⟨%d0, H0⟩, ⟨%d1, H1⟩, ⟨%d2, H2⟩⟩
      iapply ((runB1 V c t h0 h1 _).2.2 _ Set.univ _)
      iframe H0 H1 H2 HS0
      iintro ⟨H0, H1, H2, HS0⟩
      iframe HR Hg Ho H0 H1
      isplitl [HS0]
      · iapply (owns_wrote1 c _ _ tiledB1); iexact HS0
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]; exact PhiS1_any V c (Fin.last cfg1.N).val _

end Cert.Kernel.Hand

end
-- ==== Proof.K.R2Runs.lean ====
import proofs.«127071_j953482740188_1_alg».proof.Proof.Gen.Kernel.Launch
import proofs.«127071_j953482740188_1_alg».proof.Proof.Gen.Kernel.Skeleton
import proofs.«127071_j953482740188_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1

theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel

theorem idle2_2 : ∀ t : Fin cfg2.N, ¬t.val % 16 = 15 → cfg2.idle 2 (grid2.coords t) = true ∧ (cfg2.win 2).flush t = false := by decide +kernel
theorem live2_2 : ∀ t : Fin cfg2.N, t.val % 16 = 15 → cfg2.idle 2 (grid2.coords t) = false := by decide +kernel

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2 .f32 := win2_2.stage (cfg2.slots t 2)
abbrev hs2_2 (t : Fin cfg2.N) : (ms2_2 t).IsWhole := hstage2_2 ((cfg2.slots t 2).cast nbuf2_2)

abbrev scM2_0 : Memref sig .tc .vmem S512x2 .f32 := Memref.whole cc2_scratch0

abbrev VS2_0 : View sig .tc .vmem S512x2 .f32 := scM2_0.view

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

end Cert.Kernel.Hand

end
-- ==== Proof.K.R2RunA.lean ====
import proofs.«127071_j953482740188_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_A (c : Dev nD) (i : grid2.Coords) (arg2 : Memref sig .tc .vmem S512x512 .f32) (harg2 : arg2.IsWhole) (arg3 : Memref sig .tc .vmem S512x2 .f32) (harg3 : arg3.IsWhole) (arg4 : Memref sig .tc .vmem S512x2 .f32) (harg4 : arg4.IsWhole) (arg5 : Memref sig .tc .vmem S512x2 .f32) (harg5 : arg5.IsWhole) (hc0 : cond2_0 i) (hc1 : ¬cond2_1 i)
    (x0 : Vec F S512x512 .f32) (x1 : Vec F S512x2 .f32) :
    Σ' (L2 : List (View.Piece (Elt F) S512x2 .f32)), { LS0 : List (View.Piece (Elt F) S512x2 .f32) //
      ∀ (xi2 : Vec F S512x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__spmm_kernel i arg2 harg2 arg3 harg3 arg4 harg4 arg5 harg5) K } := by
  refine ⟨[], ?_, fun xi2 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R2RunB.lean ====
import proofs.«127071_j953482740188_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_B (c : Dev nD) (i : grid2.Coords) (arg2 : Memref sig .tc .vmem S512x512 .f32) (harg2 : arg2.IsWhole) (arg3 : Memref sig .tc .vmem S512x2 .f32) (harg3 : arg3.IsWhole) (arg4 : Memref sig .tc .vmem S512x2 .f32) (harg4 : arg4.IsWhole) (arg5 : Memref sig .tc .vmem S512x2 .f32) (harg5 : arg5.IsWhole) (hc0 : ¬cond2_0 i) (hc1 : ¬cond2_1 i)
    (x0 : Vec F S512x512 .f32) (x1 : Vec F S512x2 .f32) (xs0 : Vec F S512x2 .f32) :
    Σ' (L2 : List (View.Piece (Elt F) S512x2 .f32)), { LS0 : List (View.Piece (Elt F) S512x2 .f32) //
      ∀ (xi2 : Vec F S512x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__spmm_kernel i arg2 harg2 arg3 harg3 arg4 harg4 arg5 harg5) K } := by
  refine ⟨[], ?_, fun xi2 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R2RunC.lean ====
import proofs.«127071_j953482740188_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_C (c : Dev nD) (i : grid2.Coords) (arg2 : Memref sig .tc .vmem S512x512 .f32) (harg2 : arg2.IsWhole) (arg3 : Memref sig .tc .vmem S512x2 .f32) (harg3 : arg3.IsWhole) (arg4 : Memref sig .tc .vmem S512x2 .f32) (harg4 : arg4.IsWhole) (arg5 : Memref sig .tc .vmem S512x2 .f32) (harg5 : arg5.IsWhole) (hc0 : ¬cond2_0 i) (hc1 : cond2_1 i)
    (x0 : Vec F S512x512 .f32) (x1 : Vec F S512x2 .f32) (xs0 : Vec F S512x2 .f32) :
    Σ' (L2 : List (View.Piece (Elt F) S512x2 .f32)), { LS0 : List (View.Piece (Elt F) S512x2 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__spmm_kernel i arg2 harg2 arg3 harg3 arg4 harg4 arg5 harg5) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R2Frame.lean ====
import proofs.«127071_j953482740188_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def rd2 (L : List (View.Piece (Elt F) S512x2 .f32)) : Vec F S512x2 .f32 :=
  VS2_0.read (Elt F) (VS2_0.writes (Elt F) VS2_0.junk L)

-- pieces that tile a buffer cover it, so what it reads as afterwards does not depend on what it held
theorem owns_wrote2 (c : Dev nD) (M : Memref sig .tc .vmem S512x2 .f32) (L : List (View.Piece (Elt F) S512x2 .f32))
    (h : View.Piece.tiledL L S512x2.size = true) :
    iprop(∃ f, M.view.loc (c : Thread nD τ) ↦[M.view.set]{fullShare} M.view.writes (Elt F) f L) ⊢ (owns (c : Thread nD τ) M fullShare (rd2 L) : sProp 𝕄) := by
  iintro ⟨%f, H⟩
  unfold owns; iexists _; isplitr
  swap; · iexact H
  ipureintro; exact View.read_writes_of_cover _ _ _ _ _ (View.cover_of_tiledL L _ h)

section
variable {c : Dev nD} {i : grid2.Coords} {a2 : Memref sig .tc .vmem S512x512 .f32} {h2 : a2.IsWhole} {a3 a4 a5 : Memref sig .tc .vmem S512x2 .f32} {h3 : a3.IsWhole} {h4 : a4.IsWhole} {h5 : a5.IsWhole}
  {x0 : Vec F S512x512 .f32} {x1 xs : Vec F S512x2 .f32}

theorem tiledA2 {hc0 : cond2_0 i} {hc1 : ¬cond2_1 i} : View.Piece.tiledL (kernelRun2_A c i a2 h2 a3 h3 a4 h4 a5 h5 hc0 hc1 x0 x1).2.1 S512x2.size = true := by sl_kernel_rfl
theorem tiledB2 {hc0 : ¬cond2_0 i} {hc1 : ¬cond2_1 i} : View.Piece.tiledL (kernelRun2_B c i a2 h2 a3 h3 a4 h4 a5 h5 hc0 hc1 x0 x1 xs).2.1 S512x2.size = true := by sl_kernel_rfl
theorem tiledC2 {hc0 : ¬cond2_0 i} {hc1 : cond2_1 i} : View.Piece.tiledL (kernelRun2_C c i a2 h2 a3 h3 a4 h4 a5 h5 hc0 hc1 x0 x1 xs).2.1 S512x2.size = true := by sl_kernel_rfl
theorem tiledO2 {hc0 : ¬cond2_0 i} {hc1 : cond2_1 i} : View.Piece.tiledL (kernelRun2_C c i a2 h2 a3 h3 a4 h4 a5 h5 hc0 hc1 x0 x1 xs).1 S512x2.size = true := by sl_kernel_rfl
end

variable (V : (c : Dev nD) → (b : Ref sig .tc) → Buf (Elt F) ((c : Thread nD τ).loc b))

section
variable (c : Dev nD) (t : Fin cfg2.N)

def runA2 (h0 : t.val % 16 = 0) :=
  kernelRun2_A c (grid2.coords t) (ms2_0 t) (hs2_0 t) (ms2_1 t) (hs2_1 t) (ms2_2 t) (hs2_2 t) scM2_0 (Memref.isWhole_whole _) ((hcond2_0 t).mpr h0) (fun h => by have := (hcond2_1 t).mp h; omega) (iblk2 V c 0 t) (iblk2 V c 1 t)
def runB2 (h0 : ¬t.val % 16 = 0) (h1 : ¬t.val % 16 = 15) :=
  kernelRun2_B c (grid2.coords t) (ms2_0 t) (hs2_0 t) (ms2_1 t) (hs2_1 t) (ms2_2 t) (hs2_2 t) scM2_0 (Memref.isWhole_whole _) (mt (hcond2_0 t).mp h0) (mt (hcond2_1 t).mp h1) (iblk2 V c 0 t) (iblk2 V c 1 t)
def runC2 (h1 : t.val % 16 = 15) :=
  kernelRun2_C c (grid2.coords t) (ms2_0 t) (hs2_0 t) (ms2_1 t) (hs2_1 t) (ms2_2 t) (hs2_2 t) scM2_0 (Memref.isWhole_whole _) (fun h => by have := (hcond2_0 t).mp h; omega) ((hcond2_1 t).mpr h1) (iblk2 V c 0 t) (iblk2 V c 1 t)

def step2 (xs : Vec F S512x2 .f32) : Vec F S512x2 .f32 :=
  rd2 (if h0 : t.val % 16 = 0 then (runA2 V c t h0).2.1 else if h1 : t.val % 16 = 15 then (runC2 V c t h1 xs).2.1 else (runB2 V c t h0 h1 xs).2.1)
end

def acc2 (c : Dev nD) : (n : ℕ) → n ≤ cfg2.N → Vec F S512x2 .f32
  | 0, _ => rd2 []
  | n + 1, h => step2 V c ⟨n, h⟩ (acc2 c n (Nat.le_of_lt h))

def out2 (c : Dev nD) (t : Fin cfg2.N) : Vec F S512x2 .f32 :=
  if h1 : t.val % 16 = 15 then rd2 (runC2 V c t h1 (acc2 V c t.val (Nat.le_of_lt t.isLt))).1 else rd2 []

def PhiS2 (c : Dev nD) : (n : ℕ) → n ≤ cfg2.N → sProp 𝕄
  | 0, _ => Pipeline.ΦA spec2 c
  | n + 1, h => iprop(iprop(iprop(owns (c : Thread nD τ) scM2_0 fullShare (acc2 V c (n + 1) h)) ∗ rest2 (F := F) c) ∗ (∃ r, prngReg c r))

theorem PhiS2_any (c : Dev nD) (n : ℕ) (h : n ≤ cfg2.N) :
    PhiS2 V c n h ⊢ iprop(iprop(iprop((∃ d, owns (c : Thread nD τ) scM2_0 fullShare d)) ∗ rest2 (F := F) c) ∗ (∃ r, prngReg c r)) := by
  cases n with
  | zero => rw [← PhiA2_eq]; exact .rfl
  | succ n => unfold PhiS2; iintro ⟨⟨HS0, HR⟩, Hg⟩; iframe HR Hg; iexists _; iexact HS0

theorem PhiS2_pos (c : Dev nD) (n : ℕ) (h : n ≤ cfg2.N) (hz : n ≠ 0) :
    PhiS2 V c n h = iprop(iprop(iprop(owns (c : Thread nD τ) scM2_0 fullShare (acc2 V c n h)) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d

theorem leaves2_0 (c : Dev nD) (t : Fin cfg2.N) : (dat2 V c).leavesExact 0 t = owns (c : Thread nD τ) (ms2_0 t) fullShare (iblk2 V c 0 t) := by
  unfold Dat.leavesExact; rw [liveAt2_0 t]; try rfl
theorem leaves2_1 (c : Dev nD) (t : Fin cfg2.N) : (dat2 V c).leavesExact 1 t = owns (c : Thread nD τ) (ms2_1 t) fullShare (iblk2 V c 1 t) := by
  unfold Dat.leavesExact; rw [liveAt2_1 t]; try rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, leaves2_0, leaves2_1]
  rw [show (dat2 V c).owesAt () t.succ = (dat2 V c).owesAt () t.castSucc from rfl,
    show (dat2 V c).Φ t.succ = iprop(iprop(iprop(owns (c : Thread nD τ) scM2_0 fullShare (step2 V c t (acc2 V c t.val (Nat.le_of_lt t.isLt)))) ∗ rest2 (F := F) c) ∗ (∃ r, prngReg c r)) from rfl]
  unfold step2
  by_cases h1 : t.val % 16 = 15
  · have h0 : ¬t.val % 16 = 0 := by omega
    rw [dif_neg h0, dif_pos h1, show (dat2 V c).leavesExact 2 t = owns (c : Thread nD τ) (ms2_2 t) fullShare (out2 V c t) from by
      unfold Dat.leavesExact; rw [live2_2 t h1]; rfl]
    unfold out2
    rw [dif_pos h1, show (dat2 V c).Φ t.castSucc = PhiS2 V c t.val (Nat.le_of_lt t.isLt) from rfl, PhiS2_pos V c _ _ (by omega)]
    iintro ⟨⟨⟨HS0, HR⟩, Hg⟩, Ho, ⟨%d0, H0⟩, ⟨%d1, H1⟩, ⟨%d2, H2⟩⟩
    iapply ((runC2 V c t h1 _).2.2 Set.univ _)
    iframe H0 H1 HS0
    isplitl [H2]; · iexists _; iexact H2
    iintro ⟨H0, H1, H2, HS0⟩
    iframe HR Hg Ho H0 H1
    isplitl [HS0]
    · iapply (owns_wrote2 c _ _ tiledC2); iexact HS0
    iapply (owns_wrote2 c _ _ tiledO2); iexact H2
  · rw [Dat.leavesExact_idle (dat2 V c) 2 t (idle2_2 t h1).1 (idle2_2 t h1).2]
    by_cases h0 : t.val % 16 = 0
    · rw [dif_pos h0]
      refine (sep_mono_left (PhiS2_any V c _ _)).trans ?_
      iintro ⟨⟨⟨HS0, HR⟩, Hg⟩, Ho, ⟨%d0, H0⟩, ⟨%d1, H1⟩, ⟨%d2, H2⟩⟩
      iapply ((runA2 V c t h0).2.2 _ Set.univ _)
      iframe H0 H1 H2 HS0
      iintro ⟨H0, H1, H2, HS0⟩
      iframe HR Hg Ho H0 H1
      isplitl [HS0]
      · iapply (owns_wrote2 c _ _ tiledA2); iexact HS0
      iexists _; iexact H2
    · rw [dif_neg h0, dif_neg h1, show (dat2 V c).Φ t.castSucc = PhiS2 V c t.val (Nat.le_of_lt t.isLt) from rfl, PhiS2_pos V c _ _ (by omega)]
      iintro ⟨⟨⟨HS0, HR⟩, Hg⟩, Ho, ⟨%d0, H0⟩, ⟨%d1, H1⟩, ⟨%d2, H2⟩⟩
      iapply ((runB2 V c t h0 h1 _).2.2 _ Set.univ _)
      iframe H0 H1 H2 HS0
      iintro ⟨H0, H1, H2, HS0⟩
      iframe HR Hg Ho H0 H1
      isplitl [HS0]
      · iapply (owns_wrote2 c _ _ tiledB2); iexact HS0
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]; exact PhiS2_any V c (Fin.last cfg2.N).val _

end Cert.Kernel.Hand

end
-- ==== Proof.K.Fold.lean ====
import proofs.«127071_j953482740188_1_alg».proof.Proof.K.R0Frame
import proofs.«127071_j953482740188_1_alg».proof.Proof.K.R1Frame
import proofs.«127071_j953482740188_1_alg».proof.Proof.K.R2Frame
import proofs.«127071_j953482740188_1_alg».proof.Proof.Gen.Kernel.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev E0 (c : Dev nD) (b : Ref sig .tc) : Buf (Elt F) ((c : Thread nD τ).loc b) := V9 m c b
def o10 (c : Dev nD) : Buf (Elt F) ((c : Thread nD τ).loc main_v12) := (dat0 (E0 m) c).arrAt 7 cfg0.N
abbrev X10 (c : Dev nD) : Valuation τ sig (Elt F) := Function.update (V9 m c) main_v12 (o10 m c)
abbrev X11 (c : Dev nD) : Valuation τ sig (Elt F) := StableHlo.after hostOps1 (X10 m c)
abbrev E1 (c : Dev nD) (b : Ref sig .tc) : Buf (Elt F) ((c : Thread nD τ).loc b) := X11 m c b
def o12 (c : Dev nD) : Buf (Elt F) ((c : Thread nD τ).loc main_v14) := (dat1 (E1 m) c).arrAt 2 cfg1.N
abbrev X12 (c : Dev nD) : Valuation τ sig (Elt F) := Function.update (X11 m c) main_v14 (o12 m c)
abbrev X13 (c : Dev nD) : Valuation τ sig (Elt F) := StableHlo.after hostOps2 (X12 m c)
abbrev E2 (c : Dev nD) (b : Ref sig .tc) : Buf (Elt F) ((c : Thread nD τ).loc b) := X13 m c b
def o14 (c : Dev nD) : Buf (Elt F) ((c : Thread nD τ).loc main_v16) := (dat2 (E2 m) c).arrAt 2 cfg2.N
abbrev X14 (c : Dev nD) : Valuation τ sig (Elt F) := Function.update (X13 m c) main_v16 (o14 m c)

def outs : Outs (F := F) := fun J r c =>
  match J with
  | 10 => X10 m c r
  | 12 => X12 m c r
  | 14 => X14 m c r
  | _ => V9 m c r

theorem V10_eq (c : Dev nD) : V10 m (outs m) c = X10 m c := by
  show Function.update (V9 m c) main_v12 (X10 m c main_v12) = X10 m c
  rw [show X10 m c main_v12 = o10 m c from Function.update_self ..]
theorem V11_eq (c : Dev nD) : V11 m (outs m) c = X11 m c := by
  show StableHlo.after hostOps1 (V10 m (outs m) c) = _; rw [V10_eq]
theorem V12_eq (c : Dev nD) : V12 m (outs m) c = X12 m c := by
  show Function.update (V11 m (outs m) c) main_v14 (X12 m c main_v14) = X12 m c
  rw [V11_eq, show X12 m c main_v14 = o12 m c from Function.update_self ..]
theorem V13_eq (c : Dev nD) : V13 m (outs m) c = X13 m c := by
  show StableHlo.after hostOps2 (V12 m (outs m) c) = _; rw [V12_eq]
theorem V14_eq (c : Dev nD) : V14 m (outs m) c = X14 m c := by
  show Function.update (V13 m (outs m) c) main_v16 (X14 m c main_v16) = X14 m c
  rw [V13_eq, show X14 m c main_v16 = o14 m c from Function.update_self ..]

end Cert.Kernel.Hand

end
-- ==== Proof.K.R0Arrays.lean ====
import proofs.«127071_j953482740188_1_alg».proof.Proof.Gen.Kernel.Launch
import Idealize.ShloMosaic.Lib.Pipeline.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q0 : Fin 8 → PosShare TreeShare := fun w => match w with
  | ⟨0, _⟩ => fullShare.left | ⟨1, _⟩ => fullShare.right.left | ⟨2, _⟩ => fullShare.right.right
  | ⟨3, _⟩ => fullShare.left | ⟨4, _⟩ => fullShare.left | ⟨5, _⟩ => fullShare.right | ⟨6, _⟩ => fullShare.right
  | ⟨7, _⟩ => fullShare | ⟨_ + 8, h⟩ => absurd h (Nat.not_lt.2 (Nat.le_add_left _ _))

theorem image_arrRef0 : Finset.univ.image (Pipeline.arrRef spec0) = {main_arg1, main_v5, main_v11, main_v12} := by decide

section

variable (c : Dev nD) (dat : Dat τ (Elt F) Unit ℕ (UR sig nD τ) ℕ cfg0 c) (hq : ∀ w, dat.q w = q0 w)

include hq in
theorem share0 : ∀ w, dat.share w = q0 w := fun
  | 0 => hq 0 | 1 => hq 1 | 2 => hq 2 | 3 => hq 3 | 4 => hq 4 | 5 => hq 5 | 6 => hq 6 | 7 => rfl
  | ⟨_ + 8, h⟩ => absurd h (Nat.not_lt.2 (Nat.le_add_left _ _))

include hq in
theorem win0_pt (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) (w : Fin 8) :
    ((cfg0.win w).arr.view.loc (c : Thread nD τ) ↦[(cfg0.win w).arr.view.set]{dat.share w} G w : sProp 𝕄)
      = (((c : Thread nD τ).loc (Pipeline.arrRef spec0 w)) ↦{q0 w} V (Pipeline.arrRef spec0 w)) := by
  rw [(arr_whole0 w).set_eq_univ, share0 c dat hq w, hG w]

theorem arrBufs0_eq (V : (b : Ref sig .tc) → Buf (Elt F) ((c : Thread nD τ).loc b)) :
    (Pipeline.arrBufs spec0 c V : sProp 𝕄)
      = iprop((((c : Thread nD τ).loc main_arg1) ↦{fullShare} V main_arg1) ∗ (((c : Thread nD τ).loc main_v5) ↦{fullShare} V main_v5)
          ∗ (((c : Thread nD τ).loc main_v11) ↦{fullShare} V main_v11) ∗ (((c : Thread nD τ).loc main_v12) ↦{fullShare} V main_v12)) := by
  unfold Pipeline.arrBufs
  rw [image_arrRef0, bigSep_insert (by decide), bigSep_insert (by decide), bigSep_insert (by decide), bigSep_singleton]
  rfl

include hq in
theorem arrays0_eq (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄)
      = iprop((((c : Thread nD τ).loc main_arg1) ↦{fullShare.left} V main_arg1) ∗ (((c : Thread nD τ).loc main_arg1) ↦{fullShare.right.left} V main_arg1)
          ∗ (((c : Thread nD τ).loc main_arg1) ↦{fullShare.right.right} V main_arg1)
          ∗ (((c : Thread nD τ).loc main_v5) ↦{fullShare.left} V main_v5) ∗ (((c : Thread nD τ).loc main_v11) ↦{fullShare.left} V main_v11)
          ∗ (((c : Thread nD τ).loc main_v5) ↦{fullShare.right} V main_v5) ∗ (((c : Thread nD τ).loc main_v11) ↦{fullShare.right} V main_v11)
          ∗ (((c : Thread nD τ).loc main_v12) ↦{fullShare} V main_v12)) := by
  unfold Dat.arrays
  rw [bigSep_congr (fun w _ => win0_pt c dat hq V G hG w), bigSep_W0]
  rfl

include hq in
theorem arrBufs0_split (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs spec0 c V : sProp 𝕄) ⊢ dat.arrays G := by
  rw [arrBufs0_eq, arrays0_eq c dat hq V G hG]
  iintro ⟨H1, H5, H11, H12⟩
  ihave H1 := (pointsTo_share (PosShare.mem_left_op_right fullShare)).1 $$ H1
  icases H1 with ⟨H1l, H1r⟩
  ihave H1r := (pointsTo_share (PosShare.mem_left_op_right fullShare.right)).1 $$ H1r
  icases H1r with ⟨H1rl, H1rr⟩
  ihave H5 := (pointsTo_share (PosShare.mem_left_op_right fullShare)).1 $$ H5
  icases H5 with ⟨H5l, H5r⟩
  ihave H11 := (pointsTo_share (PosShare.mem_left_op_right fullShare)).1 $$ H11
  icases H11 with ⟨H11l, H11r⟩
  iframe

include hq in
theorem arrays0_join (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄) ⊢ Pipeline.arrBufs spec0 c V := by
  rw [arrBufs0_eq, arrays0_eq c dat hq V G hG]
  iintro ⟨H1l, H1rl, H1rr, H5l, H11l, H5r, H11r, H12⟩
  ihave H1r := (pointsTo_share (PosShare.mem_left_op_right fullShare.right)).2 $$ [H1rl H1rr]; · iframe
  ihave H1 := (pointsTo_share (PosShare.mem_left_op_right fullShare)).2 $$ [H1l H1r]; · iframe
  ihave H5 := (pointsTo_share (PosShare.mem_left_op_right fullShare)).2 $$ [H5l H5r]; · iframe
  ihave H11 := (pointsTo_share (PosShare.mem_left_op_right fullShare)).2 $$ [H11l H11r]; · iframe
  iframe

include hq in
theorem entry0 (V : (b : Ref sig .tc) → Buf (Elt F) ((c : Thread nD τ).loc b)) (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ (fun _ : Unit => cfg0) () winFacts₀0.arr_unscoped c V]
  exact sep_mono (arrBufs0_split c dat hq V _ hA) .rfl

include hq in
theorem exit0 (V V' : (b : Ref sig .tc) → Buf (Elt F) ((c : Thread nD τ).loc b)) (hA : ∀ w, dat.A w = V (Pipeline.arrRef spec0 w))
    (hout : V' main_v12 = dat.arrAt 7 cfg0.N) (hrest : ∀ b : Ref sig .tc, b ≠ main_v12 → V' b = V b) :
    (iprop(dat.arrays (dat.arrAt · cfg0.N) ∗ Pipeline.unscopedRest spec0 c V) : sProp 𝕄) ⊢ unscopedBufs c V' := by
  have hG : ∀ w, dat.arrAt w cfg0.N = V' (Pipeline.arrRef spec0 w) := fun
    | 0 => (dat.arrAt_in 0 rfl _).trans ((hA 0).trans (hrest _ (by decide)).symm)
    | 1 => (dat.arrAt_in 1 rfl _).trans ((hA 1).trans (hrest _ (by decide)).symm)
    | 2 => (dat.arrAt_in 2 rfl _).trans ((hA 2).trans (hrest _ (by decide)).symm)
    | 3 => (dat.arrAt_in 3 rfl _).trans ((hA 3).trans (hrest _ (by decide)).symm)
    | 4 => (dat.arrAt_in 4 rfl _).trans ((hA 4).trans (hrest _ (by decide)).symm)
    | 5 => (dat.arrAt_in 5 rfl _).trans ((hA 5).trans (hrest _ (by decide)).symm)
    | 6 => (dat.arrAt_in 6 rfl _).trans ((hA 6).trans (hrest _ (by decide)).symm)
    | 7 => hout.symm
    | ⟨_ + 8, h⟩ => absurd h (Nat.not_lt.2 (Nat.le_add_left _ _))
  rw [Pipeline.unscopedBufs_split₀ (fun _ : Unit => cfg0) () winFacts₀0.arr_unscoped c V']
  refine sep_mono (arrays0_join c dat hq V' _ hG) (Entails.of_eq ?_)
  have h12 : main_v12 ∈ Finset.univ.image (Pipeline.arrRef spec0) := Finset.mem_image_of_mem (Pipeline.arrRef spec0) (Finset.mem_univ (7 : Fin 8))
  unfold Pipeline.unscopedRest
  exact bigSep_congr fun b hb => by rw [hrest b fun h => (Finset.mem_sdiff.mp hb).2 (h ▸ h12)]

end

end Cert.Kernel.Hand

end
-- ==== Proof.K.Segs.lean ====
import proofs.«127071_j953482740188_1_alg».proof.Proof.K.Fold
import proofs.«127071_j953482740188_1_alg».proof.Proof.K.R0Arrays
import proofs.«127071_j953482740188_1_alg».proof.Proof.Gen.Kernel.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Glue

variable (c : Dev nD)

/-- Entry: the unscoped buffers are split into the region's arrays and the rest; the generator register goes into the invariant; nothing is owed. -/
theorem entry_of {H A Z PH OW : sProp 𝕄} (hsplit : H ⊢ iprop(A ∗ Z)) (hPH : (BI.emp : sProp 𝕄) ⊢ PH)
    (hOW : (iprop(∃ W, owes (c : Thread nD τ) (0 : CellTallies nD τ sig Unit) W) : sProp 𝕄) ⊢ OW) :
    (iprop(iprop(H ∗ R c) ∗ BI.emp ∗ levAts L lv) : sProp 𝕄) ⊢ |={Set.univ}=> iprop(A ∗ PH ∗ OW ∗ (∃ r, prngReg c r) ∗ Z) := by
  iintro ⟨⟨Hub, Hp, HO⟩, -, -⟩
  ihave H := hsplit $$ Hub
  icases H with ⟨Ha, Hrest⟩
  ihave HO := hOW $$ HO
  imodintro
  iframe Ha HO Hp Hrest
  iapply hPH; iempintro

/-- Exit: the arrays and the rest are joined again; the generator register comes back. -/
theorem exit_of {H A Z OW : sProp 𝕄} (hjoin : iprop(A ∗ Z) ⊢ H)
    (hOW : OW ⊢ (iprop(∃ W, owes (c : Thread nD τ) (0 : CellTallies nD τ sig Unit) W) : sProp 𝕄)) :
    (iprop(A ∗ OW ∗ (∃ r, prngReg c r) ∗ Z) : sProp 𝕄) ⊢ |={Set.univ}=> iprop(H ∗ R c) := by
  iintro ⟨Ha, HO, HY, Hrest⟩
  imodintro
  isplitl [Ha Hrest]
  · iapply hjoin; isplitl [Ha] <;> iassumption
  isplitl [HY]; · iexact HY
  iapply hOW; iexact HO

theorem in_of {PH SR : sProp 𝕄} : (iprop((∃ r, prngReg c r) ∗ PH ∗ SR) : sProp 𝕄) ⊢ iprop(SR ∗ ∃ r, prngReg c r) := by
  iintro ⟨Hp, -, Hr⟩
  iframe

theorem out_of {SR : sProp 𝕄} : (iprop(SR ∗ ∃ r, prngReg c r) : sProp 𝕄) ⊢ iprop((∃ r, prngReg c r) ∗ BI.emp ∗ SR) := by
  iintro ⟨Hr, Hp⟩
  isplitl [Hp]; · iexact Hp
  isplitr; · iempintro
  iexact Hr

end Glue

theorem hF1 (c : Dev nD) (w : Fin cfg1.W) : (pdats m 1 c).arrAt w cfg1.N = X12 m c (Pipeline.arrRef spec1 w) := by
  match w with
  | ⟨0, _⟩ => exact ((dat1 (E1 m) c).arrAt_in 0 rfl _).trans ((A_eq1 (E1 m) c 0).trans (Function.update_of_ne (StableHlo.devRef_ne_of_ne (by decide)) _ _).symm)
  | ⟨1, _⟩ => exact ((dat1 (E1 m) c).arrAt_in 1 rfl _).trans ((A_eq1 (E1 m) c 1).trans (Function.update_of_ne (StableHlo.devRef_ne_of_ne (by decide)) _ _).symm)
  | ⟨2, _⟩ => exact (show X12 m c main_v14 = o12 m c from Function.update_self ..).symm
theorem hrest1 (c : Dev nD) : ∀ b : Ref sig .tc, b ∉ Finset.univ.image (Pipeline.arrRef spec1) → X12 m c b = X11 m c b := by
  intro b hb
  have hne : b ≠ main_v14 := by
    rintro rfl
    exact hb (Finset.mem_image_of_mem (Pipeline.arrRef spec1) (Finset.mem_univ (2 : Fin 3)))
  exact Function.update_of_ne (StableHlo.devRef_ne_of_ne hne) _ _

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    refine entry_of (F := F) c hsplit ?_ ?_
    · unfold Pipeline.prefHeld; rw [show (Finset.univ : Finset (Fin 0)) = ∅ from rfl, BI.bigSep_empty]
    · unfold Pipeline.Dat.owesAt Pipeline.owesWithin
      iintro ⟨%W, HO⟩; iexists W; isplitr; · ipureintro; exact fun _ _ => Or.inl trivial
      iexact HO
  hin c := (in_of (F := F) c).trans (hin1 (E1 m) c)
  hout c := by
    rw [Pipeline.ownSems0_none]
    exact (hout1 (E1 m) c).trans (out_of (F := F) c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => X12 m c b) ((pdats m 1 c).arrAt · cfg1.N) (hF1 m c) (hrest1 m c)
    rw [Pipeline.unscopedBufs_held] at hjoin
    refine exit_of (F := F) c hjoin ?_
    unfold Pipeline.Dat.owesAt Pipeline.owesWithin
    iintro ⟨%W, -, HO⟩; iexists W; iexact HO

theorem hF2 (c : Dev nD) (w : Fin cfg2.W) : (pdats m 2 c).arrAt w cfg2.N = X14 m c (Pipeline.arrRef spec2 w) := by
  match w with
  | ⟨0, _⟩ => exact ((dat2 (E2 m) c).arrAt_in 0 rfl _).trans ((A_eq2 (E2 m) c 0).trans (Function.update_of_ne (StableHlo.devRef_ne_of_ne (by decide)) _ _).symm)
  | ⟨1, _⟩ => exact ((dat2 (E2 m) c).arrAt_in 1 rfl _).trans ((A_eq2 (E2 m) c 1).trans (Function.update_of_ne (StableHlo.devRef_ne_of_ne (by decide)) _ _).symm)
  | ⟨2, _⟩ => exact (show X14 m c main_v16 = o14 m c from Function.update_self ..).symm
theorem hrest2 (c : Dev nD) : ∀ b : Ref sig .tc, b ∉ Finset.univ.image (Pipeline.arrRef spec2) → X14 m c b = X13 m c b := by
  intro b hb
  have hne : b ≠ main_v16 := by
    rintro rfl
    exact hb (Finset.mem_image_of_mem (Pipeline.arrRef spec2) (Finset.mem_univ (2 : Fin 3)))
  exact Function.update_of_ne (StableHlo.devRef_ne_of_ne hne) _ _

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    refine entry_of (F := F) c hsplit ?_ ?_
    · unfold Pipeline.prefHeld; rw [show (Finset.univ : Finset (Fin 0)) = ∅ from rfl, BI.bigSep_empty]
    · unfold Pipeline.Dat.owesAt Pipeline.owesWithin
      iintro ⟨%W, HO⟩; iexists W; isplitr; · ipureintro; exact fun _ _ => Or.inl trivial
      iexact HO
  hin c := (in_of (F := F) c).trans (hin2 (E2 m) c)
  hout c := by
    rw [Pipeline.ownSems0_none]
    exact (hout2 (E2 m) c).trans (out_of (F := F) c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => X14 m c b) ((pdats m 2 c).arrAt · cfg2.N) (hF2 m c) (hrest2 m c)
    rw [Pipeline.unscopedBufs_held] at hjoin
    refine exit_of (F := F) c hjoin ?_
    unfold Pipeline.Dat.owesAt Pipeline.owesWithin
    iintro ⟨%W, -, HO⟩; iexists W; iexact HO

theorem hrest0 (c : Dev nD) : ∀ b : Ref sig .tc, b ≠ main_v12 → X10 m c b = V9 m c b :=
  fun b hb => Function.update_of_ne (StableHlo.devRef_ne_of_ne hb) _ _

theorem hq0 (c : Dev nD) : ∀ w, (pdats m 0 c).q w = q0 w := fun w => (q_eq0 (E0 m) c w).trans (by
  match w with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := entry0 c (pdats m 0 c) (hq0 m c) (E0 m c) (A_eq0 (E0 m) c)
    rw [Pipeline.unscopedBufs_held] at hsplit
    refine entry_of (F := F) c hsplit ?_ ?_
    · unfold Pipeline.prefHeld; rw [show (Finset.univ : Finset (Fin 0)) = ∅ from rfl, BI.bigSep_empty]
    · unfold Pipeline.Dat.owesAt Pipeline.owesWithin
      iintro ⟨%W, HO⟩; iexists W; isplitr; · ipureintro; exact fun _ _ => Or.inl trivial
      iexact HO
  hin c := (in_of (F := F) c).trans (hin0 (E0 m) c)
  hout c := by
    rw [Pipeline.ownSems0_none]
    exact (hout0 (E0 m) c).trans (out_of (F := F) c)
  hexit c := by
    have hjoin := exit0 c (pdats m 0 c) (hq0 m c) (E0 m c) (fun b => X10 m c b) (A_eq0 (E0 m) c)
      (show X10 m c main_v12 = o10 m c from Function.update_self ..) (hrest0 m c)
    rw [Pipeline.unscopedBufs_held] at hjoin
    refine exit_of (F := F) c hjoin ?_
    unfold Pipeline.Dat.owesAt Pipeline.owesWithin
    iintro ⟨%W, -, HO⟩; iexists W; iexact HO

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (u₀ : UR sig nD τ)) ∗ bigSep Finset.univ (fun _ : Dev nD => (BI.emp : sProp 𝕄))) := by
  iintro Hu; imodintro
  isplitl [Hu]
  · iapply (show (ownU (u₀ : UR sig nD τ) : sProp 𝕄) ⊢ BI.own (emb₁ (u₀ : UR sig nD τ)) from .rfl)
    iexact Hu
  iapply (show (BI.emp : sProp 𝕄) ⊢ bigSep Finset.univ (fun _ : Dev nD => (BI.emp : sProp 𝕄)) from by rw [BI.bigSep_emp_const])
  iempintro

/-- What the launch deals one core. -/
abbrev Dealt (ρ : Dev nD → PrngReg) (c : Dev nD) : sProp 𝕄 :=
  iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))

theorem hR0 (ρ : Dev nD → PrngReg) (c : Dev nD) :
    Dealt (F := F) ρ c ⊢ R (F := F) c := by
  iintro ⟨-, HO, -, Hp, -⟩
  isplitl [Hp]; · iexists _; iexact Hp
  iexists ∅; iexact HO

theorem hE0 (ρ : Dev nD → PrngReg) :
    iprop((bigSep Finset.univ fun c : Dev nD => Dealt (F := F) ρ c) ∗ levAts L lv)
      ⊢ (|={Set.univ}=> bigSep Finset.univ (fun c : Dev nD => R (F := F) c) : sProp 𝕄) := by
  have hmono : (bigSep Finset.univ fun c : Dev nD => Dealt (F := F) ρ c) ⊢ (bigSep Finset.univ (fun c : Dev nD => R (F := F) c) : sProp 𝕄) :=
    bigSep_mono fun c _ => hR0 ρ c
  iintro ⟨H, -⟩
  imodintro
  iapply hmono; iexact H

theorem hE3 (c : Dev nD) : R (F := F) c ⊢ (iprop(∃ W, owes (c : Thread nD τ) (0 : CellTallies nD τ sig Unit) W) : sProp 𝕄) := by
  iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond m emb₁ () 𝒱₀ L lv (fun _ _ => rfl) ρ (outs m) (pdats m) (fun _ => 0) (fun _ => BI.emp) u₀ hu₀
    (fun _ c => R c) (hE0 ρ) hE3
    (reg0 m) (fun _ => .rfl) (fun c => by rw [V10_eq]; exact .rfl)
    (reg1 m) (fun c => by rw [V11_eq]; exact .rfl) (fun c => by rw [V12_eq]; exact .rfl)
    (reg2 m) (fun c => by rw [V13_eq]; exact .rfl) (fun c => by rw [V14_eq]; exact .rfl)

end Cert.Kernel.Hand

end
-- ==== Proof.KI.R0Runs.lean ====
import proofs.«127071_j953482740188_1_alg».proof.Proof.Gen.KernelIdeal.Launch
import proofs.«127071_j953482740188_1_alg».proof.Proof.Gen.KernelIdeal.Skeleton
import proofs.«127071_j953482740188_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem idleAt0_7 (i : grid0.Coords) (h : ¬cond0_1 i) : cfg0.idle 7 i = true := by
  show (!(k0_cond2 i == 1#1)) = true
  rw [beq_eq_false_iff_ne.mpr h]; rfl
theorem liveAt0_7 (i : grid0.Coords) (h : cond0_1 i) : cfg0.idle 7 i = false := by
  show (!(k0_cond2 i == 1#1)) = false
  rw [beq_iff_eq.mpr h]; rfl
theorem noFlush0_7 (t : Fin cfg0.N) (h : ¬cond0_1 (grid0.coords t)) : (cfg0.win 7).flush t = false :=
  Bool.eq_false_iff.mpr fun hf => h ((hcond0_1 t).mpr ((flush0_7 t).mp hf))

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev scM0_0 : Memref sig .tc .vmem S512x512 .f32 := Memref.whole cc0_scratch0

abbrev Rest0 (c : Dev nD) : sProp 𝕄 :=
  Pipeline.scopedRestBut (Ix := Unit) (Name := ℕ) (U := UR sig nD τ) (Lvl := ℕ) (Val := Elt F) spec0 c [cc0_scratch0]

-- the scoped buffers split at the call's own scratch, which is whole
theorem PhiA0_eq (c : Dev nD) :
    (Pipeline.ΦA spec0 c : sProp 𝕄)
      = iprop(iprop(iprop((∃ d, owns (c : Thread nD τ) scM0_0 fullShare d)) ∗ Rest0 c) ∗ (∃ r, prngReg c r)) := by
  unfold Pipeline.ΦA; rw [Pipeline.scopedRest_split_of_list spec0 c [cc0_scratch0] (by decide) (by decide)]; simp only [scM0_0, owns_whole]; try rfl

theorem hz_r0 : (![0, 0] : Fin 2 → Nat) = fun _ => 0 := funext fun a => by fin_cases a <;> rfl

-- a store of the whole block, made last, decides what the buffer reads
theorem read_store0 {S : Shape} {κ : Kind} {sp : Space} (v : View sig κ sp S .f32) (f : v.ty.Contents (Elt F)) {off : Fin S.rank → Nat}
    (h : off = fun _ => 0) (inb : ∀ a, off a + S.size a ≤ S.size a) (w : Vec F S .f32) (L : List (View.Piece (Elt F) S .f32)) :
    v.read (Elt F) (v.writes (Elt F) f (⟨Rect.unit off S.size inb, w⟩ :: L)) = w :=
  (View.read_writes_eq_canon _ _ _ fun y => ⟨_, List.mem_cons.mpr (.inl rfl), View.mem_set_unit_zero h inb y⟩).trans
    (View.canon_cons_unit_zero h inb w L)

end Cert.KernelIdeal.Hand

end
-- ==== Proof.KI.R0RunA.lean ====
import proofs.«127071_j953482740188_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
-- a block's first step: the accumulator is zeroed and this step's product added; nothing is stored to the output
theorem run0_A (c : Dev nD) (i : grid0.Coords) {arg3 arg4 arg5 arg10 arg11 : Memref sig .tc .vmem S512x512 .f32} {arg6 arg8 : Memref sig .tc .vmem S512x1 .f32} {arg7 arg9 : Memref sig .tc .vmem S1x512 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
    (hc0 : cond0_0 i) (hc1 : ¬cond0_1 i) (x0 x1 x2 : Vec F S512x512 .f32) (x3 : Vec F S512x1 .f32) (x4 : Vec F S1x512 .f32) (x5 : Vec F S512x1 .f32) (x6 : Vec F S1x512 .f32) (xi7 : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ owns (c : Thread nD τ) arg10 fullShare xi7 ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare xi7 ∗ owns (c : Thread nD τ) arg11 fullShare (k0_pay2 x3 x0 x4 x5 x1 x6 k0_pay1)) -∗ K ⟨⟩))
      ⊢ wp frame (wpE (defs₀ (F := F)) Variants.none c none) E (cc0__adjf_kernel i arg3 harg3 arg4 harg4 arg5 harg5 arg6 harg6 arg7 harg7 arg8 harg8 arg9 harg9 arg10 harg10 arg11 harg11) K := by
  simp only [cc0__adjf_kernel_eq_skeleton]; unfold cc0__adjf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr; swap; · iexact HS0
  ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]

end Cert.KernelIdeal.Hand

end
-- ==== Proof.KI.R0RunB.lean ====
import proofs.«127071_j953482740188_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
-- a middle step: this step's product is added to the accumulator; nothing is stored to the output
theorem run0_B (c : Dev nD) (i : grid0.Coords) {arg3 arg4 arg5 arg10 arg11 : Memref sig .tc .vmem S512x512 .f32} {arg6 arg8 : Memref sig .tc .vmem S512x1 .f32} {arg7 arg9 : Memref sig .tc .vmem S1x512 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
    (hc0 : ¬cond0_0 i) (hc1 : ¬cond0_1 i) (x0 x1 x2 : Vec F S512x512 .f32) (x3 : Vec F S512x1 .f32) (x4 : Vec F S1x512 .f32) (x5 : Vec F S512x1 .f32) (x6 : Vec F S1x512 .f32) (xs0 xi7 : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ owns (c : Thread nD τ) arg10 fullShare xi7 ∗ owns (c : Thread nD τ) arg11 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare xi7 ∗ owns (c : Thread nD τ) arg11 fullShare (k0_pay2 x3 x0 x4 x5 x1 x6 xs0)) -∗ K ⟨⟩))
      ⊢ wp frame (wpE (defs₀ (F := F)) Variants.none c none) E (cc0__adjf_kernel i arg3 harg3 arg4 harg4 arg5 harg5 arg6 harg6 arg7 harg7 arg8 harg8 arg9 harg9 arg10 harg10 arg11 harg11) K := by
  simp only [cc0__adjf_kernel_eq_skeleton]; unfold cc0__adjf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr; swap; · iexact HS0
  ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]

end Cert.KernelIdeal.Hand

end
-- ==== Proof.KI.R0RunC.lean ====
import proofs.«127071_j953482740188_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
-- a block's last step: this step's product is added to the accumulator, and the output is stored from it
theorem run0_C (c : Dev nD) (i : grid0.Coords) {arg3 arg4 arg5 arg10 arg11 : Memref sig .tc .vmem S512x512 .f32} {arg6 arg8 : Memref sig .tc .vmem S512x1 .f32} {arg7 arg9 : Memref sig .tc .vmem S1x512 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
    (hc0 : ¬cond0_0 i) (hc1 : cond0_1 i) (x0 x1 x2 : Vec F S512x512 .f32) (x3 : Vec F S512x1 .f32) (x4 : Vec F S1x512 .f32) (x5 : Vec F S512x1 .f32) (x6 : Vec F S1x512 .f32) (xs0 : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay3 i x3 x2 x6 (k0_pay2 x3 x0 x4 x5 x1 x6 xs0)) ∗ owns (c : Thread nD τ) arg11 fullShare (k0_pay2 x3 x0 x4 x5 x1 x6 xs0)) -∗ K ⟨⟩))
      ⊢ wp frame (wpE (defs₀ (F := F)) Variants.none c none) E (cc0__adjf_kernel i arg3 harg3 arg4 harg4 arg5 harg5 arg6 harg6 arg7 harg7 arg8 harg8 arg9 harg9 arg10 harg10 arg11 harg11) K := by
  simp only [cc0__adjf_kernel_eq_skeleton]; unfold cc0__adjf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]
  iexists _; isplitr; swap; · iexact HS0
  ipureintro; sl_unfold_words; simp only [read_store0 (S := S512x512) _ _ hz_r0, View.readAt_eq_ld, Memref.IsWhole.read_unread, View.ld_unit_zero (S := S512x512) hz_r0, View.ld_unit_zero (S := S512x1) hz_r0, View.ld_unit_zero (S := S1x512) hz_r0, View.readCov_unit_zero (S := S512x512) _ hz_r0]

end Cert.KernelIdeal.Hand

end
-- ==== Proof.KI.R0Frame.lean ====
import proofs.«127071_j953482740188_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- one step at point `t`: the accumulator `s` plus the product of the point's two scaled blocks
def acc0 (c : Dev nD) (t : Fin cfg0.N) (s : Vec F S512x512 .f32) : Vec F S512x512 .f32 :=
  k0_pay2 (iblk0 V c 3 t) (iblk0 V c 0 t) (iblk0 V c 4 t) (iblk0 V c 5 t) (iblk0 V c 1 t) (iblk0 V c 6 t) s

-- the accumulator after point `n`: a block's first step starts from zero, a later one from the step before
def scr0 (c : Dev nD) : (n : ℕ) → n < cfg0.N → Vec F S512x512 .f32
  | 0, h => acc0 V c ⟨0, h⟩ k0_pay1
  | n + 1, h => acc0 V c ⟨n + 1, h⟩ (if (n + 1) % 16 = 0 then k0_pay1 else scr0 c n (Nat.lt_of_succ_lt h))

theorem scr0_eq (c : Dev nD) (t : Fin cfg0.N) :
    scr0 V c t.val t.isLt = acc0 V c t (if t.val % 16 = 0 then k0_pay1 else scr0 V c (t.val - 1) (Nat.lt_of_le_of_lt (Nat.sub_le _ _) t.isLt)) := by
  obtain ⟨n, hn⟩ := t
  cases n with
  | zero => rfl
  | succ n => rfl

-- what the last step of a block stores
def out0 (c : Dev nD) (t : Fin cfg0.N) : Vec F S512x512 .f32 :=
  k0_pay3 (grid0.coords t) (iblk0 V c 3 t) (iblk0 V c 2 t) (iblk0 V c 6 t) (scr0 V c t.val t.isLt)

-- before position `n` the accumulator is what the step before left, unless a block begins there
def Phi0 (c : Dev nD) (n : ℕ) : sProp 𝕄 :=
  iprop(iprop(iprop(∃ d, ⌜∀ h : n - 1 < cfg0.N, n % 16 ≠ 0 → d = scr0 V c (n - 1) h⌝ ∗ owns (c : Thread nD τ) scM0_0 fullShare d) ∗ Rest0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c t
  Φ t := Phi0 V c t.val
  q w := match w with
    | ⟨0, _⟩ => fullShare.left
    | ⟨1, _⟩ => fullShare.right.left
    | ⟨2, _⟩ => fullShare.right.right
    | ⟨3, _⟩ => fullShare.left
    | ⟨4, _⟩ => fullShare.left
    | ⟨5, _⟩ => fullShare.right
    | ⟨6, _⟩ => fullShare.right
    | ⟨7, _⟩ => fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = match w with
    | ⟨0, _⟩ => fullShare.left
    | ⟨1, _⟩ => fullShare.right.left
    | ⟨2, _⟩ => fullShare.right.right
    | ⟨3, _⟩ => fullShare.left
    | ⟨4, _⟩ => fullShare.left
    | ⟨5, _⟩ => fullShare.right
    | ⟨6, _⟩ => fullShare.right
    | ⟨7, _⟩ => fullShare := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; dsimp only [dat0]; try rfl) t d).trans
    (by unfold Dat.fetched Dat.blockOf; dsimp only [dat0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun _ => by unfold Dat.blockOf; dsimp only [dat0]; try rfl) t d).trans
    (by unfold Dat.fetched Dat.blockOf; dsimp only [dat0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun _ => by unfold Dat.blockOf; dsimp only [dat0]; try rfl) t d).trans
    (by unfold Dat.fetched Dat.blockOf; dsimp only [dat0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun _ => by unfold Dat.blockOf; dsimp only [dat0]; try rfl) t d).trans
    (by unfold Dat.fetched Dat.blockOf; dsimp only [dat0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun _ => by unfold Dat.blockOf; dsimp only [dat0]; try rfl) t d).trans
    (by unfold Dat.fetched Dat.blockOf; dsimp only [dat0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun _ => by unfold Dat.blockOf; dsimp only [dat0]; try rfl) t d).trans
    (by unfold Dat.fetched Dat.blockOf; dsimp only [dat0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun _ => by unfold Dat.blockOf; dsimp only [dat0]; try rfl) t d).trans
    (by unfold Dat.fetched Dat.blockOf; dsimp only [dat0]; try rfl)

theorem live0 {c : Dev nD} (dat : Dat τ (Elt F) Unit ℕ (UR sig nD τ) ℕ cfg0 c) (w : Fin cfg0.W) (t : Fin cfg0.N) (h : cfg0.idle w (grid0.coords t) = false) :
    dat.leavesExact w t = owns (c : Thread nD τ) ((cfg0.win w).stage (cfg0.slots t w)) fullShare (dat.after w t) := by
  unfold Dat.leavesExact; rw [h]

theorem leaves0_0 (c : Dev nD) (t : Fin cfg0.N) : (dat0 V c).leavesExact 0 t = owns (c : Thread nD τ) (ms0_0 t) fullShare (iblk0 V c 0 t) :=
  (live0 _ 0 t rfl).trans (by dsimp only [dat0])
theorem leaves0_1 (c : Dev nD) (t : Fin cfg0.N) : (dat0 V c).leavesExact 1 t = owns (c : Thread nD τ) (ms0_1 t) fullShare (iblk0 V c 1 t) :=
  (live0 _ 1 t rfl).trans (by dsimp only [dat0])
theorem leaves0_2 (c : Dev nD) (t : Fin cfg0.N) : (dat0 V c).leavesExact 2 t = owns (c : Thread nD τ) (ms0_2 t) fullShare (iblk0 V c 2 t) :=
  (live0 _ 2 t rfl).trans (by dsimp only [dat0])
theorem leaves0_3 (c : Dev nD) (t : Fin cfg0.N) : (dat0 V c).leavesExact 3 t = owns (c : Thread nD τ) (ms0_3 t) fullShare (iblk0 V c 3 t) :=
  (live0 _ 3 t rfl).trans (by dsimp only [dat0])
theorem leaves0_4 (c : Dev nD) (t : Fin cfg0.N) : (dat0 V c).leavesExact 4 t = owns (c : Thread nD τ) (ms0_4 t) fullShare (iblk0 V c 4 t) :=
  (live0 _ 4 t rfl).trans (by dsimp only [dat0])
theorem leaves0_5 (c : Dev nD) (t : Fin cfg0.N) : (dat0 V c).leavesExact 5 t = owns (c : Thread nD τ) (ms0_5 t) fullShare (iblk0 V c 5 t) :=
  (live0 _ 5 t rfl).trans (by dsimp only [dat0])
theorem leaves0_6 (c : Dev nD) (t : Fin cfg0.N) : (dat0 V c).leavesExact 6 t = owns (c : Thread nD τ) (ms0_6 t) fullShare (iblk0 V c 6 t) :=
  (live0 _ 6 t rfl).trans (by dsimp only [dat0])
theorem leaves0_7 (c : Dev nD) (t : Fin cfg0.N) (h : t.val % 16 = 15) : (dat0 V c).leavesExact 7 t = owns (c : Thread nD τ) (ms0_7 t) fullShare (out0 V c t) :=
  (live0 _ 7 t (liveAt0_7 _ ((hcond0_1 t).mpr h))).trans (by dsimp only [dat0])

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

-- at every point the case selected by its position in the block applies; the accumulator passes through the invariant
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [leaves0_0, leaves0_1, leaves0_2, leaves0_3, leaves0_4, leaves0_5, leaves0_6]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  unfold Phi0
  by_cases h1 : t.val % 16 = 15
  · have h0 : ¬t.val % 16 = 0 := by omega
    rw [leaves0_7 V c t h1]; unfold out0; rw [scr0_eq V c t, if_neg h0]; unfold acc0
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hs (Nat.lt_of_le_of_lt (Nat.sub_le _ _) t.isLt) h0
    iapply run0_C c (grid0.coords t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ Set.univ _
    iframe H0 H1 H2 H3 H4 H5 H6 HS
    isplitl [H7]; · iexists _; iexact H7
    iintro ⟨H0, H1, H2, H3, H4, H5, H6, H7, HS⟩
    iframe HR Hg Ho H0 H1 H2 H3 H4 H5 H6 H7
    iexists _; isplitr; swap; · iexact HS
    ipureintro; intro _ h; exact absurd (by omega) h
  · have hc1 : ¬cond0_1 (grid0.coords t) := fun h => h1 ((hcond0_1 t).mp h)
    rw [Dat.leavesExact_idle (dat0 V c) 7 t (idleAt0_7 _ hc1) (noFlush0_7 t hc1)]
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h0 : t.val % 16 = 0
    · iapply run0_A c (grid0.coords t) ((hcond0_0 t).mpr h0) hc1 (iblk0 V c 0 t) (iblk0 V c 1 t) (iblk0 V c 2 t) (iblk0 V c 3 t) (iblk0 V c 4 t) (iblk0 V c 5 t) (iblk0 V c 6 t) _ Set.univ _
      iframe H0 H1 H2 H3 H4 H5 H6 H7
      isplitl [HS]; · iexists _; iexact HS
      iintro ⟨H0, H1, H2, H3, H4, H5, H6, H7, HS⟩
      iframe HR Hg Ho H0 H1 H2 H3 H4 H5 H6
      isplitl [HS]
      · iexists _; isplitr; swap; · iexact HS
        ipureintro; intro _ _; show _ = scr0 V c t.val t.isLt; rw [scr0_eq V c t, if_pos h0]; rfl
      iexists _; iexact H7
    · obtain rfl := hs (Nat.lt_of_le_of_lt (Nat.sub_le _ _) t.isLt) h0
      iapply run0_B c (grid0.coords t) (fun h => h0 ((hcond0_0 t).mp h)) hc1 (iblk0 V c 0 t) (iblk0 V c 1 t) (iblk0 V c 2 t) (iblk0 V c 3 t) (iblk0 V c 4 t) (iblk0 V c 5 t) (iblk0 V c 6 t) _ _ Set.univ _
      iframe H0 H1 H2 H3 H4 H5 H6 H7 HS
      iintro ⟨H0, H1, H2, H3, H4, H5, H6, H7, HS⟩
      iframe HR Hg Ho H0 H1 H2 H3 H4 H5 H6
      isplitl [HS]
      · iexists _; isplitr; swap; · iexact HS
        ipureintro; intro _ _; show _ = scr0 V c t.val t.isLt; rw [scr0_eq V c t, if_neg h0]; rfl
      iexists _; iexact H7

theorem body_obligation0 (c : Dev nD) : BodyObligation (dat0 (F := F) V c) (defs₀ (F := F)) Variants.none () Set.univ := fun t => by
  rw [bigSep_W0, bigSep_W0]
  exact sound_body0 V c t

-- at the first position nothing is asked of the accumulator
theorem hin0 (c : Dev nD) : Pipeline.ΦA spec0 c ⊢ (dat0 V c).Φ 0 := by
  rw [show (dat0 V c).Φ 0 = Phi0 V c 0 from rfl, PhiA0_eq]; unfold Phi0
  iintro ⟨⟨⟨%d, HS⟩, HR⟩, Hg⟩
  iframe HR Hg
  iexists d; isplitr; swap; · iexact HS
  ipureintro; intro _ h; exact absurd rfl h

-- the accumulator's contents are forgotten
theorem hout0 (c : Dev nD) : (dat0 V c).Φ (Fin.last cfg0.N) ⊢ Pipeline.ΦA spec0 c := by
  rw [show (dat0 V c).Φ (Fin.last cfg0.N) = Phi0 V c cfg0.N from rfl, PhiA0_eq]; unfold Phi0
  iintro ⟨⟨⟨%d, -, HS⟩, HR⟩, Hg⟩
  iframe HR Hg
  iexists d; iexact HS

end Cert.KernelIdeal.Hand

end
-- ==== Proof.KI.R1Runs.lean ====
import proofs.«127071_j953482740188_1_alg».proof.Proof.Gen.KernelIdeal.Launch
import proofs.«127071_j953482740188_1_alg».proof.Proof.Gen.KernelIdeal.Skeleton
import proofs.«127071_j953482740188_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem idle1_2 : ∀ t : Fin cfg1.N, ¬t.val % 16 = 15 → cfg1.idle 2 (grid1.coords t) = true ∧ (cfg1.win 2).flush t = false := by decide +kernel
theorem live1_2 : ∀ t : Fin cfg1.N, t.val % 16 = 15 → cfg1.idle 2 (grid1.coords t) = false := by decide +kernel

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev scM1_0 : Memref sig .tc .vmem S512x256 .f32 := Memref.whole cc1_scratch0
abbrev VS1_0 : View sig .tc .vmem S512x256 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.R1RunA.lean ====
import proofs.«127071_j953482740188_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (hc0 : cond1_0 i) (hc1 : ¬cond1_1 i)
    (x0 : Vec F S512x512 .f32) (x1 : Vec F S512x256 .f32) :
    Σ' (L2 : List (View.Piece (Elt F) S512x256 .f32)), { LS0 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunB.lean ====
import proofs.«127071_j953482740188_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (hc0 : ¬cond1_0 i) (hc1 : ¬cond1_1 i)
    (x0 : Vec F S512x512 .f32) (x1 : Vec F S512x256 .f32) (xs0 : Vec F S512x256 .f32) :
    Σ' (L2 : List (View.Piece (Elt F) S512x256 .f32)), { LS0 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunC.lean ====
import proofs.«127071_j953482740188_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_C (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (hc0 : ¬cond1_0 i) (hc1 : cond1_1 i)
    (x0 : Vec F S512x512 .f32) (x1 : Vec F S512x256 .f32) (xs0 : Vec F S512x256 .f32) :
    Σ' (L2 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1Frame.lean ====
import proofs.«127071_j953482740188_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rest1 (c : Dev nD) : sProp 𝕄 :=
  Pipeline.scopedRestBut (Ix := Unit) (Name := ℕ) (U := UR sig nD τ) (Lvl := ℕ) (Val := Elt F) spec1 c [cc1_scratch0]

def rd1 (L : List (View.Piece (Elt F) S512x256 .f32)) : Vec F S512x256 .f32 :=
  VS1_0.read (Elt F) (VS1_0.writes (Elt F) VS1_0.junk L)

-- pieces that tile a buffer cover it, so what it reads as afterwards does not depend on what it held
theorem owns_wrote1 (c : Dev nD) (M : Memref sig .tc .vmem S512x256 .f32) (L : List (View.Piece (Elt F) S512x256 .f32))
    (h : View.Piece.tiledL L S512x256.size = true) :
    iprop(∃ f, M.view.loc (c : Thread nD τ) ↦[M.view.set]{fullShare} M.view.writes (Elt F) f L) ⊢ (owns (c : Thread nD τ) M fullShare (rd1 L) : sProp 𝕄) := by
  iintro ⟨%f, H⟩
  unfold owns; iexists _; isplitr
  swap; · iexact H
  ipureintro; exact View.read_writes_of_cover _ _ _ _ _ (View.cover_of_tiledL L _ h)

section
variable {c : Dev nD} {i : grid1.Coords} {a2 : Memref sig .tc .vmem S512x512 .f32} {h2 : a2.IsWhole} {a3 a4 a5 : Memref sig .tc .vmem S512x256 .f32} {h3 : a3.IsWhole} {h4 : a4.IsWhole} {h5 : a5.IsWhole}
  {x0 : Vec F S512x512 .f32} {x1 xs : Vec F S512x256 .f32}

theorem tiledA1 {hc0 : cond1_0 i} {hc1 : ¬cond1_1 i} : View.Piece.tiledL (kernelRun1_A c i a2 h2 a3 h3 a4 h4 a5 h5 hc0 hc1 x0 x1).2.1 S512x256.size = true := by sl_kernel_rfl
theorem tiledB1 {hc0 : ¬cond1_0 i} {hc1 : ¬cond1_1 i} : View.Piece.tiledL (kernelRun1_B c i a2 h2 a3 h3 a4 h4 a5 h5 hc0 hc1 x0 x1 xs).2.1 S512x256.size = true := by sl_kernel_rfl
theorem tiledC1 {hc0 : ¬cond1_0 i} {hc1 : cond1_1 i} : View.Piece.tiledL (kernelRun1_C c i a2 h2 a3 h3 a4 h4 a5 h5 hc0 hc1 x0 x1 xs).2.1 S512x256.size = true := by sl_kernel_rfl
theorem tiledO1 {hc0 : ¬cond1_0 i} {hc1 : cond1_1 i} : View.Piece.tiledL (kernelRun1_C c i a2 h2 a3 h3 a4 h4 a5 h5 hc0 hc1 x0 x1 xs).1 S512x256.size = true := by sl_kernel_rfl
end

variable (V : (c : Dev nD) → (b : Ref sig .tc) → Buf (Elt F) ((c : Thread nD τ).loc b))

section
variable (c : Dev nD) (t : Fin cfg1.N)

def runA1 (h0 : t.val % 16 = 0) :=
  kernelRun1_A c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t)
def runB1 (h0 : ¬t.val % 16 = 0) (h1 : ¬t.val % 16 = 15) :=
  kernelRun1_B c (grid1.coords t) (ms1_0 t) (hs1_0 t) (ms1_1 t) (hs1_1 t) (ms1_2 t) (hs1_2 t) scM1_0 (Memref.isWhole_whole _) (mt (hcond1_0 t).mp h0) (mt (hcond1_1 t).mp h1) (iblk1 V c 0 t) (iblk1 V c 1 t)
def runC1 (h1 : t.val % 16 = 15) :=
  kernelRun1_C c (grid1.coords t) (ms1_0 t) (hs1_0 t) (ms1_1 t) (hs1_1 t) (ms1_2 t) (hs1_2 t) scM1_0 (Memref.isWhole_whole _) (fun h => by have := (hcond1_0 t).mp h; omega) ((hcond1_1 t).mpr h1) (iblk1 V c 0 t) (iblk1 V c 1 t)

def step1 (xs : Vec F S512x256 .f32) : Vec F S512x256 .f32 :=
  rd1 (if h0 : t.val % 16 = 0 then (runA1 V c t h0).2.1 else if h1 : t.val % 16 = 15 then (runC1 V c t h1 xs).2.1 else (runB1 V c t h0 h1 xs).2.1)
end

def acc1 (c : Dev nD) : (n : ℕ) → n ≤ cfg1.N → Vec F S512x256 .f32
  | 0, _ => rd1 []
  | n + 1, h => step1 V c ⟨n, h⟩ (acc1 c n (Nat.le_of_lt h))

def out1 (c : Dev nD) (t : Fin cfg1.N) : Vec F S512x256 .f32 :=
  if h1 : t.val % 16 = 15 then rd1 (runC1 V c t h1 (acc1 V c t.val (Nat.le_of_lt t.isLt))).1 else rd1 []

def PhiS1 (c : Dev nD) : (n : ℕ) → n ≤ cfg1.N → sProp 𝕄
  | 0, _ => Pipeline.ΦA spec1 c
  | n + 1, h => iprop(iprop(iprop(owns (c : Thread nD τ) scM1_0 fullShare (acc1 V c (n + 1) h)) ∗ rest1 (F := F) c) ∗ (∃ r, prngReg c r))

theorem PhiS1_any (c : Dev nD) (n : ℕ) (h : n ≤ cfg1.N) :
    PhiS1 V c n h ⊢ iprop(iprop(iprop((∃ d, owns (c : Thread nD τ) scM1_0 fullShare d)) ∗ rest1 (F := F) c) ∗ (∃ r, prngReg c r)) := by
  cases n with
  | zero => rw [← PhiA1_eq]; exact .rfl
  | succ n => unfold PhiS1; iintro ⟨⟨HS0, HR⟩, Hg⟩; iframe HR Hg; iexists _; iexact HS0

theorem PhiS1_pos (c : Dev nD) (n : ℕ) (h : n ≤ cfg1.N) (hz : n ≠ 0) :
    PhiS1 V c n h = iprop(iprop(iprop(owns (c : Thread nD τ) scM1_0 fullShare (acc1 V c n h)) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d

theorem leaves1_0 (c : Dev nD) (t : Fin cfg1.N) : (dat1 V c).leavesExact 0 t = owns (c : Thread nD τ) (ms1_0 t) fullShare (iblk1 V c 0 t) := by
  rw [show iblk1 V c 0 t = (dat1 V c).after 0 t from rfl]
theorem leaves1_1 (c : Dev nD) (t : Fin cfg1.N) : (dat1 V c).leavesExact 1 t = owns (c : Thread nD τ) (ms1_1 t) fullShare (iblk1 V c 1 t) := by
  rw [show iblk1 V c 1 t = (dat1 V c).after 1 t from rfl]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, leaves1_0, leaves1_1]
  rw [show (dat1 V c).owesAt () t.succ = (dat1 V c).owesAt () t.castSucc from rfl,
    show (dat1 V c).Φ t.succ = iprop(iprop(iprop(owns (c : Thread nD τ) scM1_0 fullShare (step1 V c t (acc1 V c t.val (Nat.le_of_lt t.isLt)))) ∗ rest1 (F := F) c) ∗ (∃ r, prngReg c r)) from rfl]
  unfold step1
  by_cases h1 : t.val % 16 = 15
  · have h0 : ¬t.val % 16 = 0 := by omega
    rw [dif_neg h0, dif_pos h1, show (dat1 V c).leavesExact 2 t = owns (c : Thread nD τ) (ms1_2 t) fullShare (out1 V c t) from by
      unfold Dat.leavesExact; rw [live1_2 t h1]; rfl]
    unfold out1
    rw [dif_pos h1, show (dat1 V c).Φ t.castSucc = PhiS1 V c t.val (Nat.le_of_lt t.isLt) from rfl, PhiS1_pos V c _ _ (by omega)]
    iintro ⟨⟨⟨HS0, HR⟩, Hg⟩, Ho, ⟨%d0, H0⟩, ⟨%d1, H1⟩, ⟨%d2, H2⟩⟩
    iapply ((runC1 V c t h1 _).2.2 Set.univ _)
    iframe H0 H1 HS0
    isplitl [H2]; · iexists _; iexact H2
    iintro ⟨H0, H1, H2, HS0⟩
    iframe HR Hg Ho H0 H1
    isplitl [HS0]
    · iapply (owns_wrote1 c _ _ tiledC1); iexact HS0
    iapply (owns_wrote1 c _ _ tiledO1); iexact H2
  · rw [Dat.leavesExact_idle (dat1 V c) 2 t (idle1_2 t h1).1 (idle1_2 t h1).2]
    by_cases h0 : t.val % 16 = 0
    · rw [dif_pos h0]
      refine (sep_mono_left (PhiS1_any V c _ _)).trans ?_
      iintro ⟨⟨⟨HS0, HR⟩, Hg⟩, Ho, ⟨%d0, H0⟩, ⟨%d1, H1⟩, ⟨%d2, H2⟩⟩
      iapply ((runA1 V c t h0).2.2 _ Set.univ _)
      iframe H0 H1 H2 HS0
      iintro ⟨H0, H1, H2, HS0⟩
      iframe HR Hg Ho H0 H1
      isplitl [HS0]
      · iapply (owns_wrote1 c _ _ tiledA1); iexact HS0
      iexists _; iexact H2
    · rw [dif_neg h0, dif_neg h1, show (dat1 V c).Φ t.castSucc = PhiS1 V c t.val (Nat.le_of_lt t.isLt) from rfl, PhiS1_pos V c _ _ (by omega)]
      iintro ⟨⟨⟨HS0, HR⟩, Hg⟩, Ho, ⟨%d0, H0⟩, ⟨%d1, H1⟩, ⟨%d2, H2⟩⟩
      iapply ((runB1 V c t h0 h1 _).2.2 _ Set.univ _)
      iframe H0 H1 H2 HS0
      iintro ⟨H0, H1, H2, HS0⟩
      iframe HR Hg Ho H0 H1
      isplitl [HS0]
      · iapply (owns_wrote1 c _ _ tiledB1); iexact HS0
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]; exact PhiS1_any V c (Fin.last cfg1.N).val _

end Cert.KernelIdeal.Hand

end
-- ==== Proof.KI.R2Runs.lean ====
import proofs.«127071_j953482740188_1_alg».proof.Proof.Gen.KernelIdeal.Launch
import proofs.«127071_j953482740188_1_alg».proof.Proof.Gen.KernelIdeal.Skeleton
import proofs.«127071_j953482740188_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1

theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel

theorem idle2_2 : ∀ t : Fin cfg2.N, ¬t.val % 16 = 15 → cfg2.idle 2 (grid2.coords t) = true ∧ (cfg2.win 2).flush t = false := by decide +kernel
theorem live2_2 : ∀ t : Fin cfg2.N, t.val % 16 = 15 → cfg2.idle 2 (grid2.coords t) = false := by decide +kernel

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2 .f32 := win2_2.stage (cfg2.slots t 2)
abbrev hs2_2 (t : Fin cfg2.N) : (ms2_2 t).IsWhole := hstage2_2 ((cfg2.slots t 2).cast nbuf2_2)

abbrev scM2_0 : Memref sig .tc .vmem S512x2 .f32 := Memref.whole cc2_scratch0

abbrev VS2_0 : View sig .tc .vmem S512x2 .f32 := scM2_0.view

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

end Cert.KernelIdeal.Hand

end
-- ==== Proof.KI.R2RunA.lean ====
import proofs.«127071_j953482740188_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_A (c : Dev nD) (i : grid2.Coords) (arg2 : Memref sig .tc .vmem S512x512 .f32) (harg2 : arg2.IsWhole) (arg3 : Memref sig .tc .vmem S512x2 .f32) (harg3 : arg3.IsWhole) (arg4 : Memref sig .tc .vmem S512x2 .f32) (harg4 : arg4.IsWhole) (arg5 : Memref sig .tc .vmem S512x2 .f32) (harg5 : arg5.IsWhole) (hc0 : cond2_0 i) (hc1 : ¬cond2_1 i)
    (x0 : Vec F S512x512 .f32) (x1 : Vec F S512x2 .f32) :
    Σ' (L2 : List (View.Piece (Elt F) S512x2 .f32)), { LS0 : List (View.Piece (Elt F) S512x2 .f32) //
      ∀ (xi2 : Vec F S512x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__spmm_kernel i arg2 harg2 arg3 harg3 arg4 harg4 arg5 harg5) K } := by
  refine ⟨[], ?_, fun xi2 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R2RunB.lean ====
import proofs.«127071_j953482740188_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_B (c : Dev nD) (i : grid2.Coords) (arg2 : Memref sig .tc .vmem S512x512 .f32) (harg2 : arg2.IsWhole) (arg3 : Memref sig .tc .vmem S512x2 .f32) (harg3 : arg3.IsWhole) (arg4 : Memref sig .tc .vmem S512x2 .f32) (harg4 : arg4.IsWhole) (arg5 : Memref sig .tc .vmem S512x2 .f32) (harg5 : arg5.IsWhole) (hc0 : ¬cond2_0 i) (hc1 : ¬cond2_1 i)
    (x0 : Vec F S512x512 .f32) (x1 : Vec F S512x2 .f32) (xs0 : Vec F S512x2 .f32) :
    Σ' (L2 : List (View.Piece (Elt F) S512x2 .f32)), { LS0 : List (View.Piece (Elt F) S512x2 .f32) //
      ∀ (xi2 : Vec F S512x2 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__spmm_kernel i arg2 harg2 arg3 harg3 arg4 harg4 arg5 harg5) K } := by
  refine ⟨[], ?_, fun xi2 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R2RunC.lean ====
import proofs.«127071_j953482740188_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_C (c : Dev nD) (i : grid2.Coords) (arg2 : Memref sig .tc .vmem S512x512 .f32) (harg2 : arg2.IsWhole) (arg3 : Memref sig .tc .vmem S512x2 .f32) (harg3 : arg3.IsWhole) (arg4 : Memref sig .tc .vmem S512x2 .f32) (harg4 : arg4.IsWhole) (arg5 : Memref sig .tc .vmem S512x2 .f32) (harg5 : arg5.IsWhole) (hc0 : ¬cond2_0 i) (hc1 : cond2_1 i)
    (x0 : Vec F S512x512 .f32) (x1 : Vec F S512x2 .f32) (xs0 : Vec F S512x2 .f32) :
    Σ' (L2 : List (View.Piece (Elt F) S512x2 .f32)), { LS0 : List (View.Piece (Elt F) S512x2 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__spmm_kernel i arg2 harg2 arg3 harg3 arg4 harg4 arg5 harg5) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R2Frame.lean ====
import proofs.«127071_j953482740188_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def rd2 (L : List (View.Piece (Elt F) S512x2 .f32)) : Vec F S512x2 .f32 :=
  VS2_0.read (Elt F) (VS2_0.writes (Elt F) VS2_0.junk L)

-- pieces that tile a buffer cover it, so what it reads as afterwards does not depend on what it held
theorem owns_wrote2 (c : Dev nD) (M : Memref sig .tc .vmem S512x2 .f32) (L : List (View.Piece (Elt F) S512x2 .f32))
    (h : View.Piece.tiledL L S512x2.size = true) :
    iprop(∃ f, M.view.loc (c : Thread nD τ) ↦[M.view.set]{fullShare} M.view.writes (Elt F) f L) ⊢ (owns (c : Thread nD τ) M fullShare (rd2 L) : sProp 𝕄) := by
  iintro ⟨%f, H⟩
  unfold owns; iexists _; isplitr
  swap; · iexact H
  ipureintro; exact View.read_writes_of_cover _ _ _ _ _ (View.cover_of_tiledL L _ h)

section
variable {c : Dev nD} {i : grid2.Coords} {a2 : Memref sig .tc .vmem S512x512 .f32} {h2 : a2.IsWhole} {a3 a4 a5 : Memref sig .tc .vmem S512x2 .f32} {h3 : a3.IsWhole} {h4 : a4.IsWhole} {h5 : a5.IsWhole}
  {x0 : Vec F S512x512 .f32} {x1 xs : Vec F S512x2 .f32}

theorem tiledA2 {hc0 : cond2_0 i} {hc1 : ¬cond2_1 i} : View.Piece.tiledL (kernelRun2_A c i a2 h2 a3 h3 a4 h4 a5 h5 hc0 hc1 x0 x1).2.1 S512x2.size = true := by sl_kernel_rfl
theorem tiledB2 {hc0 : ¬cond2_0 i} {hc1 : ¬cond2_1 i} : View.Piece.tiledL (kernelRun2_B c i a2 h2 a3 h3 a4 h4 a5 h5 hc0 hc1 x0 x1 xs).2.1 S512x2.size = true := by sl_kernel_rfl
theorem tiledC2 {hc0 : ¬cond2_0 i} {hc1 : cond2_1 i} : View.Piece.tiledL (kernelRun2_C c i a2 h2 a3 h3 a4 h4 a5 h5 hc0 hc1 x0 x1 xs).2.1 S512x2.size = true := by sl_kernel_rfl
theorem tiledO2 {hc0 : ¬cond2_0 i} {hc1 : cond2_1 i} : View.Piece.tiledL (kernelRun2_C c i a2 h2 a3 h3 a4 h4 a5 h5 hc0 hc1 x0 x1 xs).1 S512x2.size = true := by sl_kernel_rfl
end

variable (V : (c : Dev nD) → (b : Ref sig .tc) → Buf (Elt F) ((c : Thread nD τ).loc b))

section
variable (c : Dev nD) (t : Fin cfg2.N)

def runA2 (h0 : t.val % 16 = 0) :=
  kernelRun2_A c (grid2.coords t) (ms2_0 t) (hs2_0 t) (ms2_1 t) (hs2_1 t) (ms2_2 t) (hs2_2 t) scM2_0 (Memref.isWhole_whole _) ((hcond2_0 t).mpr h0) (fun h => by have := (hcond2_1 t).mp h; omega) (iblk2 V c 0 t) (iblk2 V c 1 t)
def runB2 (h0 : ¬t.val % 16 = 0) (h1 : ¬t.val % 16 = 15) :=
  kernelRun2_B c (grid2.coords t) (ms2_0 t) (hs2_0 t) (ms2_1 t) (hs2_1 t) (ms2_2 t) (hs2_2 t) scM2_0 (Memref.isWhole_whole _) (mt (hcond2_0 t).mp h0) (mt (hcond2_1 t).mp h1) (iblk2 V c 0 t) (iblk2 V c 1 t)
def runC2 (h1 : t.val % 16 = 15) :=
  kernelRun2_C c (grid2.coords t) (ms2_0 t) (hs2_0 t) (ms2_1 t) (hs2_1 t) (ms2_2 t) (hs2_2 t) scM2_0 (Memref.isWhole_whole _) (fun h => by have := (hcond2_0 t).mp h; omega) ((hcond2_1 t).mpr h1) (iblk2 V c 0 t) (iblk2 V c 1 t)

def step2 (xs : Vec F S512x2 .f32) : Vec F S512x2 .f32 :=
  rd2 (if h0 : t.val % 16 = 0 then (runA2 V c t h0).2.1 else if h1 : t.val % 16 = 15 then (runC2 V c t h1 xs).2.1 else (runB2 V c t h0 h1 xs).2.1)
end

def acc2 (c : Dev nD) : (n : ℕ) → n ≤ cfg2.N → Vec F S512x2 .f32
  | 0, _ => rd2 []
  | n + 1, h => step2 V c ⟨n, h⟩ (acc2 c n (Nat.le_of_lt h))

def out2 (c : Dev nD) (t : Fin cfg2.N) : Vec F S512x2 .f32 :=
  if h1 : t.val % 16 = 15 then rd2 (runC2 V c t h1 (acc2 V c t.val (Nat.le_of_lt t.isLt))).1 else rd2 []

def PhiS2 (c : Dev nD) : (n : ℕ) → n ≤ cfg2.N → sProp 𝕄
  | 0, _ => Pipeline.ΦA spec2 c
  | n + 1, h => iprop(iprop(iprop(owns (c : Thread nD τ) scM2_0 fullShare (acc2 V c (n + 1) h)) ∗ rest2 (F := F) c) ∗ (∃ r, prngReg c r))

theorem PhiS2_any (c : Dev nD) (n : ℕ) (h : n ≤ cfg2.N) :
    PhiS2 V c n h ⊢ iprop(iprop(iprop((∃ d, owns (c : Thread nD τ) scM2_0 fullShare d)) ∗ rest2 (F := F) c) ∗ (∃ r, prngReg c r)) := by
  cases n with
  | zero => rw [← PhiA2_eq]; exact .rfl
  | succ n => unfold PhiS2; iintro ⟨⟨HS0, HR⟩, Hg⟩; iframe HR Hg; iexists _; iexact HS0

theorem PhiS2_pos (c : Dev nD) (n : ℕ) (h : n ≤ cfg2.N) (hz : n ≠ 0) :
    PhiS2 V c n h = iprop(iprop(iprop(owns (c : Thread nD τ) scM2_0 fullShare (acc2 V c n h)) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d

theorem leaves2_0 (c : Dev nD) (t : Fin cfg2.N) : (dat2 V c).leavesExact 0 t = owns (c : Thread nD τ) (ms2_0 t) fullShare (iblk2 V c 0 t) := by
  unfold Dat.leavesExact; rw [liveAt2_0 t]; try rfl
theorem leaves2_1 (c : Dev nD) (t : Fin cfg2.N) : (dat2 V c).leavesExact 1 t = owns (c : Thread nD τ) (ms2_1 t) fullShare (iblk2 V c 1 t) := by
  unfold Dat.leavesExact; rw [liveAt2_1 t]; try rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, leaves2_0, leaves2_1]
  rw [show (dat2 V c).owesAt () t.succ = (dat2 V c).owesAt () t.castSucc from rfl,
    show (dat2 V c).Φ t.succ = iprop(iprop(iprop(owns (c : Thread nD τ) scM2_0 fullShare (step2 V c t (acc2 V c t.val (Nat.le_of_lt t.isLt)))) ∗ rest2 (F := F) c) ∗ (∃ r, prngReg c r)) from rfl]
  unfold step2
  by_cases h1 : t.val % 16 = 15
  · have h0 : ¬t.val % 16 = 0 := by omega
    rw [dif_neg h0, dif_pos h1, show (dat2 V c).leavesExact 2 t = owns (c : Thread nD τ) (ms2_2 t) fullShare (out2 V c t) from by
      unfold Dat.leavesExact; rw [live2_2 t h1]; rfl]
    unfold out2
    rw [dif_pos h1, show (dat2 V c).Φ t.castSucc = PhiS2 V c t.val (Nat.le_of_lt t.isLt) from rfl, PhiS2_pos V c _ _ (by omega)]
    iintro ⟨⟨⟨HS0, HR⟩, Hg⟩, Ho, ⟨%d0, H0⟩, ⟨%d1, H1⟩, ⟨%d2, H2⟩⟩
    iapply ((runC2 V c t h1 _).2.2 Set.univ _)
    iframe H0 H1 HS0
    isplitl [H2]; · iexists _; iexact H2
    iintro ⟨H0, H1, H2, HS0⟩
    iframe HR Hg Ho H0 H1
    isplitl [HS0]
    · iapply (owns_wrote2 c _ _ tiledC2); iexact HS0
    iapply (owns_wrote2 c _ _ tiledO2); iexact H2
  · rw [Dat.leavesExact_idle (dat2 V c) 2 t (idle2_2 t h1).1 (idle2_2 t h1).2]
    by_cases h0 : t.val % 16 = 0
    · rw [dif_pos h0]
      refine (sep_mono_left (PhiS2_any V c _ _)).trans ?_
      iintro ⟨⟨⟨HS0, HR⟩, Hg⟩, Ho, ⟨%d0, H0⟩, ⟨%d1, H1⟩, ⟨%d2, H2⟩⟩
      iapply ((runA2 V c t h0).2.2 _ Set.univ _)
      iframe H0 H1 H2 HS0
      iintro ⟨H0, H1, H2, HS0⟩
      iframe HR Hg Ho H0 H1
      isplitl [HS0]
      · iapply (owns_wrote2 c _ _ tiledA2); iexact HS0
      iexists _; iexact H2
    · rw [dif_neg h0, dif_neg h1, show (dat2 V c).Φ t.castSucc = PhiS2 V c t.val (Nat.le_of_lt t.isLt) from rfl, PhiS2_pos V c _ _ (by omega)]
      iintro ⟨⟨⟨HS0, HR⟩, Hg⟩, Ho, ⟨%d0, H0⟩, ⟨%d1, H1⟩, ⟨%d2, H2⟩⟩
      iapply ((runB2 V c t h0 h1 _).2.2 _ Set.univ _)
      iframe H0 H1 H2 HS0
      iintro ⟨H0, H1, H2, HS0⟩
      iframe HR Hg Ho H0 H1
      isplitl [HS0]
      · iapply (owns_wrote2 c _ _ tiledB2); iexact HS0
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]; exact PhiS2_any V c (Fin.last cfg2.N).val _

end Cert.KernelIdeal.Hand

end
-- ==== Proof.KI.Fold.lean ====
import proofs.«127071_j953482740188_1_alg».proof.Proof.KI.R0Frame
import proofs.«127071_j953482740188_1_alg».proof.Proof.KI.R1Frame
import proofs.«127071_j953482740188_1_alg».proof.Proof.KI.R2Frame
import proofs.«127071_j953482740188_1_alg».proof.Proof.Gen.KernelIdeal.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev E0 (c : Dev nD) (b : Ref sig .tc) : Buf (Elt F) ((c : Thread nD τ).loc b) := V9 m c b
def o10 (c : Dev nD) : Buf (Elt F) ((c : Thread nD τ).loc main_v12) := (dat0 (E0 m) c).arrAt 7 cfg0.N
abbrev X10 (c : Dev nD) : Valuation τ sig (Elt F) := Function.update (V9 m c) main_v12 (o10 m c)
abbrev X11 (c : Dev nD) : Valuation τ sig (Elt F) := StableHlo.after hostOps1 (X10 m c)
abbrev E1 (c : Dev nD) (b : Ref sig .tc) : Buf (Elt F) ((c : Thread nD τ).loc b) := X11 m c b
def o12 (c : Dev nD) : Buf (Elt F) ((c : Thread nD τ).loc main_v14) := (dat1 (E1 m) c).arrAt 2 cfg1.N
abbrev X12 (c : Dev nD) : Valuation τ sig (Elt F) := Function.update (X11 m c) main_v14 (o12 m c)
abbrev X13 (c : Dev nD) : Valuation τ sig (Elt F) := StableHlo.after hostOps2 (X12 m c)
abbrev E2 (c : Dev nD) (b : Ref sig .tc) : Buf (Elt F) ((c : Thread nD τ).loc b) := X13 m c b
def o14 (c : Dev nD) : Buf (Elt F) ((c : Thread nD τ).loc main_v16) := (dat2 (E2 m) c).arrAt 2 cfg2.N
abbrev X14 (c : Dev nD) : Valuation τ sig (Elt F) := Function.update (X13 m c) main_v16 (o14 m c)

def outs : Outs (F := F) := fun J r c =>
  match J with
  | 10 => X10 m c r
  | 12 => X12 m c r
  | 14 => X14 m c r
  | _ => V9 m c r

theorem V10_eq (c : Dev nD) : V10 m (outs m) c = X10 m c := by
  show Function.update (V9 m c) main_v12 (X10 m c main_v12) = X10 m c
  rw [show X10 m c main_v12 = o10 m c from Function.update_self ..]
theorem V11_eq (c : Dev nD) : V11 m (outs m) c = X11 m c := by
  show StableHlo.after hostOps1 (V10 m (outs m) c) = _; rw [V10_eq]
theorem V12_eq (c : Dev nD) : V12 m (outs m) c = X12 m c := by
  show Function.update (V11 m (outs m) c) main_v14 (X12 m c main_v14) = X12 m c
  rw [V11_eq, show X12 m c main_v14 = o12 m c from Function.update_self ..]
theorem V13_eq (c : Dev nD) : V13 m (outs m) c = X13 m c := by
  show StableHlo.after hostOps2 (V12 m (outs m) c) = _; rw [V12_eq]
theorem V14_eq (c : Dev nD) : V14 m (outs m) c = X14 m c := by
  show Function.update (V13 m (outs m) c) main_v16 (X14 m c main_v16) = X14 m c
  rw [V13_eq, show X14 m c main_v16 = o14 m c from Function.update_self ..]

end Cert.KernelIdeal.Hand

end
-- ==== Proof.KI.R0Arrays.lean ====
import proofs.«127071_j953482740188_1_alg».proof.Proof.Gen.KernelIdeal.Launch
import Idealize.ShloMosaic.Lib.Pipeline.Regions
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q0 : Fin 8 → PosShare TreeShare := fun w => match w with
  | ⟨0, _⟩ => fullShare.left | ⟨1, _⟩ => fullShare.right.left | ⟨2, _⟩ => fullShare.right.right
  | ⟨3, _⟩ => fullShare.left | ⟨4, _⟩ => fullShare.left | ⟨5, _⟩ => fullShare.right | ⟨6, _⟩ => fullShare.right
  | ⟨7, _⟩ => fullShare | ⟨_ + 8, h⟩ => absurd h (Nat.not_lt.2 (Nat.le_add_left _ _))

theorem image_arrRef0 : Finset.univ.image (Pipeline.arrRef spec0) = {main_arg1, main_v5, main_v11, main_v12} := by decide

section

variable (c : Dev nD) (dat : Dat τ (Elt F) Unit ℕ (UR sig nD τ) ℕ cfg0 c) (hq : ∀ w, dat.q w = q0 w)

include hq in
theorem share0 : ∀ w, dat.share w = q0 w := fun
  | 0 => hq 0 | 1 => hq 1 | 2 => hq 2 | 3 => hq 3 | 4 => hq 4 | 5 => hq 5 | 6 => hq 6 | 7 => rfl
  | ⟨_ + 8, h⟩ => absurd h (Nat.not_lt.2 (Nat.le_add_left _ _))

include hq in
theorem win0_pt (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) (w : Fin 8) :
    ((cfg0.win w).arr.view.loc (c : Thread nD τ) ↦[(cfg0.win w).arr.view.set]{dat.share w} G w : sProp 𝕄)
      = (((c : Thread nD τ).loc (Pipeline.arrRef spec0 w)) ↦{q0 w} V (Pipeline.arrRef spec0 w)) := by
  rw [(arr_whole0 w).set_eq_univ, share0 c dat hq w, hG w]

theorem arrBufs0_eq (V : (b : Ref sig .tc) → Buf (Elt F) ((c : Thread nD τ).loc b)) :
    (Pipeline.arrBufs spec0 c V : sProp 𝕄)
      = iprop((((c : Thread nD τ).loc main_arg1) ↦{fullShare} V main_arg1) ∗ (((c : Thread nD τ).loc main_v5) ↦{fullShare} V main_v5)
          ∗ (((c : Thread nD τ).loc main_v11) ↦{fullShare} V main_v11) ∗ (((c : Thread nD τ).loc main_v12) ↦{fullShare} V main_v12)) := by
  unfold Pipeline.arrBufs
  rw [image_arrRef0, bigSep_insert (by decide), bigSep_insert (by decide), bigSep_insert (by decide), bigSep_singleton]
  rfl

include hq in
theorem arrays0_eq (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄)
      = iprop((((c : Thread nD τ).loc main_arg1) ↦{fullShare.left} V main_arg1) ∗ (((c : Thread nD τ).loc main_arg1) ↦{fullShare.right.left} V main_arg1)
          ∗ (((c : Thread nD τ).loc main_arg1) ↦{fullShare.right.right} V main_arg1)
          ∗ (((c : Thread nD τ).loc main_v5) ↦{fullShare.left} V main_v5) ∗ (((c : Thread nD τ).loc main_v11) ↦{fullShare.left} V main_v11)
          ∗ (((c : Thread nD τ).loc main_v5) ↦{fullShare.right} V main_v5) ∗ (((c : Thread nD τ).loc main_v11) ↦{fullShare.right} V main_v11)
          ∗ (((c : Thread nD τ).loc main_v12) ↦{fullShare} V main_v12)) := by
  unfold Dat.arrays
  rw [bigSep_congr (fun w _ => win0_pt c dat hq V G hG w), bigSep_W0]
  rfl

include hq in
theorem arrBufs0_split (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs spec0 c V : sProp 𝕄) ⊢ dat.arrays G := by
  rw [arrBufs0_eq, arrays0_eq c dat hq V G hG]
  iintro ⟨H1, H5, H11, H12⟩
  ihave H1 := (pointsTo_share (PosShare.mem_left_op_right fullShare)).1 $$ H1
  icases H1 with ⟨H1l, H1r⟩
  ihave H1r := (pointsTo_share (PosShare.mem_left_op_right fullShare.right)).1 $$ H1r
  icases H1r with ⟨H1rl, H1rr⟩
  ihave H5 := (pointsTo_share (PosShare.mem_left_op_right fullShare)).1 $$ H5
  icases H5 with ⟨H5l, H5r⟩
  ihave H11 := (pointsTo_share (PosShare.mem_left_op_right fullShare)).1 $$ H11
  icases H11 with ⟨H11l, H11r⟩
  iframe

include hq in
theorem arrays0_join (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄) ⊢ Pipeline.arrBufs spec0 c V := by
  rw [arrBufs0_eq, arrays0_eq c dat hq V G hG]
  iintro ⟨H1l, H1rl, H1rr, H5l, H11l, H5r, H11r, H12⟩
  ihave H1r := (pointsTo_share (PosShare.mem_left_op_right fullShare.right)).2 $$ [H1rl H1rr]; · iframe
  ihave H1 := (pointsTo_share (PosShare.mem_left_op_right fullShare)).2 $$ [H1l H1r]; · iframe
  ihave H5 := (pointsTo_share (PosShare.mem_left_op_right fullShare)).2 $$ [H5l H5r]; · iframe
  ihave H11 := (pointsTo_share (PosShare.mem_left_op_right fullShare)).2 $$ [H11l H11r]; · iframe
  iframe

include hq in
theorem entry0 (V : (b : Ref sig .tc) → Buf (Elt F) ((c : Thread nD τ).loc b)) (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ (fun _ : Unit => cfg0) () winFacts₀0.arr_unscoped c V]
  exact sep_mono (arrBufs0_split c dat hq V _ hA) .rfl

include hq in
theorem exit0 (V V' : (b : Ref sig .tc) → Buf (Elt F) ((c : Thread nD τ).loc b)) (hA : ∀ w, dat.A w = V (Pipeline.arrRef spec0 w))
    (hout : V' main_v12 = dat.arrAt 7 cfg0.N) (hrest : ∀ b : Ref sig .tc, b ≠ main_v12 → V' b = V b) :
    (iprop(dat.arrays (dat.arrAt · cfg0.N) ∗ Pipeline.unscopedRest spec0 c V) : sProp 𝕄) ⊢ unscopedBufs c V' := by
  have hG : ∀ w, dat.arrAt w cfg0.N = V' (Pipeline.arrRef spec0 w) := fun
    | 0 => (dat.arrAt_in 0 rfl _).trans ((hA 0).trans (hrest _ (by decide)).symm)
    | 1 => (dat.arrAt_in 1 rfl _).trans ((hA 1).trans (hrest _ (by decide)).symm)
    | 2 => (dat.arrAt_in 2 rfl _).trans ((hA 2).trans (hrest _ (by decide)).symm)
    | 3 => (dat.arrAt_in 3 rfl _).trans ((hA 3).trans (hrest _ (by decide)).symm)
    | 4 => (dat.arrAt_in 4 rfl _).trans ((hA 4).trans (hrest _ (by decide)).symm)
    | 5 => (dat.arrAt_in 5 rfl _).trans ((hA 5).trans (hrest _ (by decide)).symm)
    | 6 => (dat.arrAt_in 6 rfl _).trans ((hA 6).trans (hrest _ (by decide)).symm)
    | 7 => hout.symm
    | ⟨_ + 8, h⟩ => absurd h (Nat.not_lt.2 (Nat.le_add_left _ _))
  rw [Pipeline.unscopedBufs_split₀ (fun _ : Unit => cfg0) () winFacts₀0.arr_unscoped c V']
  refine sep_mono (arrays0_join c dat hq V' _ hG) (Entails.of_eq ?_)
  have h12 : main_v12 ∈ Finset.univ.image (Pipeline.arrRef spec0) := Finset.mem_image_of_mem (Pipeline.arrRef spec0) (Finset.mem_univ (7 : Fin 8))
  unfold Pipeline.unscopedRest
  exact bigSep_congr fun b hb => by rw [hrest b fun h => (Finset.mem_sdiff.mp hb).2 (h ▸ h12)]

end

end Cert.KernelIdeal.Hand

end
-- ==== Proof.KI.Segs.lean ====
import proofs.«127071_j953482740188_1_alg».proof.Proof.KI.Fold
import proofs.«127071_j953482740188_1_alg».proof.Proof.KI.R0Arrays
import proofs.«127071_j953482740188_1_alg».proof.Proof.Gen.KernelIdeal.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Glue

variable (c : Dev nD)

/-- Entry: the unscoped buffers are split into the region's arrays and the rest; the generator register goes into the invariant; nothing is owed. -/
theorem entry_of {H A Z PH OW : sProp 𝕄} (hsplit : H ⊢ iprop(A ∗ Z)) (hPH : (BI.emp : sProp 𝕄) ⊢ PH)
    (hOW : (iprop(∃ W, owes (c : Thread nD τ) (0 : CellTallies nD τ sig Unit) W) : sProp 𝕄) ⊢ OW) :
    (iprop(iprop(H ∗ R c) ∗ BI.emp ∗ levAts L lv) : sProp 𝕄) ⊢ |={Set.univ}=> iprop(A ∗ PH ∗ OW ∗ (∃ r, prngReg c r) ∗ Z) := by
  iintro ⟨⟨Hub, Hp, HO⟩, -, -⟩
  ihave H := hsplit $$ Hub
  icases H with ⟨Ha, Hrest⟩
  ihave HO := hOW $$ HO
  imodintro
  iframe Ha HO Hp Hrest
  iapply hPH; iempintro

/-- Exit: the arrays and the rest are joined again; the generator register comes back. -/
theorem exit_of {H A Z OW : sProp 𝕄} (hjoin : iprop(A ∗ Z) ⊢ H)
    (hOW : OW ⊢ (iprop(∃ W, owes (c : Thread nD τ) (0 : CellTallies nD τ sig Unit) W) : sProp 𝕄)) :
    (iprop(A ∗ OW ∗ (∃ r, prngReg c r) ∗ Z) : sProp 𝕄) ⊢ |={Set.univ}=> iprop(H ∗ R c) := by
  iintro ⟨Ha, HO, HY, Hrest⟩
  imodintro
  isplitl [Ha Hrest]
  · iapply hjoin; isplitl [Ha] <;> iassumption
  isplitl [HY]; · iexact HY
  iapply hOW; iexact HO

theorem in_of {PH SR : sProp 𝕄} : (iprop((∃ r, prngReg c r) ∗ PH ∗ SR) : sProp 𝕄) ⊢ iprop(SR ∗ ∃ r, prngReg c r) := by
  iintro ⟨Hp, -, Hr⟩
  iframe

theorem out_of {SR : sProp 𝕄} : (iprop(SR ∗ ∃ r, prngReg c r) : sProp 𝕄) ⊢ iprop((∃ r, prngReg c r) ∗ BI.emp ∗ SR) := by
  iintro ⟨Hr, Hp⟩
  isplitl [Hp]; · iexact Hp
  isplitr; · iempintro
  iexact Hr

end Glue

theorem hF1 (c : Dev nD) (w : Fin cfg1.W) : (pdats m 1 c).arrAt w cfg1.N = X12 m c (Pipeline.arrRef spec1 w) := by
  match w with
  | ⟨0, _⟩ => exact ((dat1 (E1 m) c).arrAt_in 0 rfl _).trans ((A_eq1 (E1 m) c 0).trans (Function.update_of_ne (StableHlo.devRef_ne_of_ne (by decide)) _ _).symm)
  | ⟨1, _⟩ => exact ((dat1 (E1 m) c).arrAt_in 1 rfl _).trans ((A_eq1 (E1 m) c 1).trans (Function.update_of_ne (StableHlo.devRef_ne_of_ne (by decide)) _ _).symm)
  | ⟨2, _⟩ => exact (show X12 m c main_v14 = o12 m c from Function.update_self ..).symm
theorem hrest1 (c : Dev nD) : ∀ b : Ref sig .tc, b ∉ Finset.univ.image (Pipeline.arrRef spec1) → X12 m c b = X11 m c b := by
  intro b hb
  have hne : b ≠ main_v14 := by
    rintro rfl
    exact hb (Finset.mem_image_of_mem (Pipeline.arrRef spec1) (Finset.mem_univ (2 : Fin 3)))
  exact Function.update_of_ne (StableHlo.devRef_ne_of_ne hne) _ _

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    refine entry_of (F := F) c hsplit ?_ ?_
    · unfold Pipeline.prefHeld; rw [show (Finset.univ : Finset (Fin 0)) = ∅ from rfl, BI.bigSep_empty]
    · unfold Pipeline.Dat.owesAt Pipeline.owesWithin
      iintro ⟨%W, HO⟩; iexists W; isplitr; · ipureintro; exact fun _ _ => Or.inl trivial
      iexact HO
  hin c := (in_of (F := F) c).trans (hin1 (E1 m) c)
  hout c := by
    rw [Pipeline.ownSems0_none]
    exact (hout1 (E1 m) c).trans (out_of (F := F) c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => X12 m c b) ((pdats m 1 c).arrAt · cfg1.N) (hF1 m c) (hrest1 m c)
    rw [Pipeline.unscopedBufs_held] at hjoin
    refine exit_of (F := F) c hjoin ?_
    unfold Pipeline.Dat.owesAt Pipeline.owesWithin
    iintro ⟨%W, -, HO⟩; iexists W; iexact HO

theorem hF2 (c : Dev nD) (w : Fin cfg2.W) : (pdats m 2 c).arrAt w cfg2.N = X14 m c (Pipeline.arrRef spec2 w) := by
  match w with
  | ⟨0, _⟩ => exact ((dat2 (E2 m) c).arrAt_in 0 rfl _).trans ((A_eq2 (E2 m) c 0).trans (Function.update_of_ne (StableHlo.devRef_ne_of_ne (by decide)) _ _).symm)
  | ⟨1, _⟩ => exact ((dat2 (E2 m) c).arrAt_in 1 rfl _).trans ((A_eq2 (E2 m) c 1).trans (Function.update_of_ne (StableHlo.devRef_ne_of_ne (by decide)) _ _).symm)
  | ⟨2, _⟩ => exact (show X14 m c main_v16 = o14 m c from Function.update_self ..).symm
theorem hrest2 (c : Dev nD) : ∀ b : Ref sig .tc, b ∉ Finset.univ.image (Pipeline.arrRef spec2) → X14 m c b = X13 m c b := by
  intro b hb
  have hne : b ≠ main_v16 := by
    rintro rfl
    exact hb (Finset.mem_image_of_mem (Pipeline.arrRef spec2) (Finset.mem_univ (2 : Fin 3)))
  exact Function.update_of_ne (StableHlo.devRef_ne_of_ne hne) _ _

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    refine entry_of (F := F) c hsplit ?_ ?_
    · unfold Pipeline.prefHeld; rw [show (Finset.univ : Finset (Fin 0)) = ∅ from rfl, BI.bigSep_empty]
    · unfold Pipeline.Dat.owesAt Pipeline.owesWithin
      iintro ⟨%W, HO⟩; iexists W; isplitr; · ipureintro; exact fun _ _ => Or.inl trivial
      iexact HO
  hin c := (in_of (F := F) c).trans (hin2 (E2 m) c)
  hout c := by
    rw [Pipeline.ownSems0_none]
    exact (hout2 (E2 m) c).trans (out_of (F := F) c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => X14 m c b) ((pdats m 2 c).arrAt · cfg2.N) (hF2 m c) (hrest2 m c)
    rw [Pipeline.unscopedBufs_held] at hjoin
    refine exit_of (F := F) c hjoin ?_
    unfold Pipeline.Dat.owesAt Pipeline.owesWithin
    iintro ⟨%W, -, HO⟩; iexists W; iexact HO

theorem hrest0 (c : Dev nD) : ∀ b : Ref sig .tc, b ≠ main_v12 → X10 m c b = V9 m c b :=
  fun b hb => Function.update_of_ne (StableHlo.devRef_ne_of_ne hb) _ _

theorem hq0 (c : Dev nD) : ∀ w, (pdats m 0 c).q w = q0 w := fun w => (q_eq0 (E0 m) c w).trans (by
  match w with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := entry0 c (pdats m 0 c) (hq0 m c) (E0 m c) (A_eq0 (E0 m) c)
    rw [Pipeline.unscopedBufs_held] at hsplit
    refine entry_of (F := F) c hsplit ?_ ?_
    · unfold Pipeline.prefHeld; rw [show (Finset.univ : Finset (Fin 0)) = ∅ from rfl, BI.bigSep_empty]
    · unfold Pipeline.Dat.owesAt Pipeline.owesWithin
      iintro ⟨%W, HO⟩; iexists W; isplitr; · ipureintro; exact fun _ _ => Or.inl trivial
      iexact HO
  hin c := (in_of (F := F) c).trans (hin0 (E0 m) c)
  hout c := by
    rw [Pipeline.ownSems0_none]
    exact (hout0 (E0 m) c).trans (out_of (F := F) c)
  hexit c := by
    have hjoin := exit0 c (pdats m 0 c) (hq0 m c) (E0 m c) (fun b => X10 m c b) (A_eq0 (E0 m) c)
      (show X10 m c main_v12 = o10 m c from Function.update_self ..) (hrest0 m c)
    rw [Pipeline.unscopedBufs_held] at hjoin
    refine exit_of (F := F) c hjoin ?_
    unfold Pipeline.Dat.owesAt Pipeline.owesWithin
    iintro ⟨%W, -, HO⟩; iexists W; iexact HO

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (u₀ : UR sig nD τ)) ∗ bigSep Finset.univ (fun _ : Dev nD => (BI.emp : sProp 𝕄))) := by
  iintro Hu; imodintro
  isplitl [Hu]
  · iapply (show (ownU (u₀ : UR sig nD τ) : sProp 𝕄) ⊢ BI.own (emb₁ (u₀ : UR sig nD τ)) from .rfl)
    iexact Hu
  iapply (show (BI.emp : sProp 𝕄) ⊢ bigSep Finset.univ (fun _ : Dev nD => (BI.emp : sProp 𝕄)) from by rw [BI.bigSep_emp_const])
  iempintro

/-- What the launch deals one core. -/
abbrev Dealt (ρ : Dev nD → PrngReg) (c : Dev nD) : sProp 𝕄 :=
  iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))

theorem hR0 (ρ : Dev nD → PrngReg) (c : Dev nD) :
    Dealt (F := F) ρ c ⊢ R (F := F) c := by
  iintro ⟨-, HO, -, Hp, -⟩
  isplitl [Hp]; · iexists _; iexact Hp
  iexists ∅; iexact HO

theorem hE0 (ρ : Dev nD → PrngReg) :
    iprop((bigSep Finset.univ fun c : Dev nD => Dealt (F := F) ρ c) ∗ levAts L lv)
      ⊢ (|={Set.univ}=> bigSep Finset.univ (fun c : Dev nD => R (F := F) c) : sProp 𝕄) := by
  have hmono : (bigSep Finset.univ fun c : Dev nD => Dealt (F := F) ρ c) ⊢ (bigSep Finset.univ (fun c : Dev nD => R (F := F) c) : sProp 𝕄) :=
    bigSep_mono fun c _ => hR0 ρ c
  iintro ⟨H, -⟩
  imodintro
  iapply hmono; iexact H

theorem hE3 (c : Dev nD) : R (F := F) c ⊢ (iprop(∃ W, owes (c : Thread nD τ) (0 : CellTallies nD τ sig Unit) W) : sProp 𝕄) := by
  iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond m emb₁ () 𝒱₀ L lv (fun _ _ => rfl) ρ (outs m) (pdats m) (fun _ => 0) (fun _ => BI.emp) u₀ hu₀
    (fun _ c => R c) (hE0 ρ) hE3
    (reg0 m) (fun _ => .rfl) (fun c => by rw [V10_eq]; exact .rfl)
    (reg1 m) (fun c => by rw [V11_eq]; exact .rfl) (fun c => by rw [V12_eq]; exact .rfl)
    (reg2 m) (fun c => by rw [V13_eq]; exact .rfl) (fun c => by rw [V14_eq]; exact .rfl)

end Cert.KernelIdeal.Hand

end
-- ==== Proof.KI.RunValue.lean ====
import proofs.«127071_j953482740188_1_alg».proof.Proof.KI.Segs
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The launch over the three regions' segment records, with the result read off the last valuation: the result buffer holds what the host operations after the third region make of its output, and the arguments are as launched. -/
theorem run_value (ρ : Dev nD → PrngReg) : θ_run defs (onTc (τ := τ) (main (F := F))) ⟨m, fun _ => 0, ρ⟩ (fun r => ∀ c : Dev nD,
      r.2.mem ((c.tc : Thread nD τ).loc main_v20) = V16 m (outs m) c main_v20 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) := by
  have h10 : ∀ c : Dev nD, (reg0 m).post c ⊢ iprop(StableHlo.held (c : Thread nD τ) (Pipeline.ucRefs τ sig) (V10 m (outs m) c) ∗ R c) := fun c => by rw [V10_eq]; exact .rfl
  have h11 : ∀ c : Dev nD, iprop(StableHlo.held (c : Thread nD τ) (Pipeline.ucRefs τ sig) (V11 m (outs m) c) ∗ R c) ⊢ (reg1 m).pre c := fun c => by rw [V11_eq]; exact .rfl
  have h12 : ∀ c : Dev nD, (reg1 m).post c ⊢ iprop(StableHlo.held (c : Thread nD τ) (Pipeline.ucRefs τ sig) (V12 m (outs m) c) ∗ R c) := fun c => by rw [V12_eq]; exact .rfl
  have h13 : ∀ c : Dev nD, iprop(StableHlo.held (c : Thread nD τ) (Pipeline.ucRefs τ sig) (V13 m (outs m) c) ∗ R c) ⊢ (reg2 m).pre c := fun c => by rw [V13_eq]; exact .rfl
  have h14 : ∀ c : Dev nD, (reg2 m).post c ⊢ iprop(StableHlo.held (c : Thread nD τ) (Pipeline.ucRefs τ sig) (V14 m (outs m) c) ∗ R c) := fun c => by rw [V14_eq]; exact .rfl
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m))
    (fun c Q => by
      rewrite [main_chain c, Seg.run_eq_chain,
        show (segs m (outs m) 𝒱₀ L lv (fun _ c => R c) () (pdats m) (reg0 m) (reg1 m) (reg2 m) c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3, StableHlo.seq hostOps3_1 ] from rfl]
      exact .rfl)
    (fun c => by simp only [segs, Seg.pipes_host, Seg.pipes_region, Seg.pipes_nil]; decide) (fun _ => 0) (fun _ _ => rfl) (fun _ => BI.emp) u₀ hu₀
    (T₀ := fun c => iprop(StableHlo.held (c : Thread nD τ) (Pipeline.ucRefs τ sig) (V0 m c) ∗ R c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, h10 c, h11 c, h12 c, h13 c, h14 c, .rfl, sep_mono .rfl (hE3 c)⟩)
    (hinit := ?_) (QY := fun c s => s.mem ((c.tc : Thread nD τ).loc main_v20) = V16 m (outs m) c main_v20 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => Dealt (F := F) ρ c) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (Entails.of_eq (bigSep_sep' Finset.univ (fun c : Dev nD => StableHlo.held (c : Thread nD τ) (Pipeline.ucRefs τ sig) (V0 m c)) (fun c : Dev nD => R (F := F) c)).symm)
    isplitl [Hh]; · iexact Hh
    iexact HE
  · unfold StableHlo.held
    iintro ⟨Hh, HSI⟩
    ihave Hr := (pointsTo_read_all (Pipeline.ucRefs τ sig) (fun b => ((c : Thread nD τ).1, b)) (V16 m (outs m) c) s') $$ [Hh HSI]
    · isplitl [Hh] <;> iassumption
    icases Hr with ⟨%h, HSI⟩
    imodintro
    isplitr
    · ipureintro
      exact ⟨h (Proc.devRef .tc main_v20) (Finset.mem_filter.mpr ⟨StableHlo.devRef_mem_tcRefs main_v20, by decide⟩),
        (h (Proc.devRef .tc main_arg0) (Finset.mem_filter.mpr ⟨StableHlo.devRef_mem_tcRefs main_arg0, by decide⟩)).trans (V16_main_arg0 m (outs m) c),
        (h (Proc.devRef .tc main_arg1) (Finset.mem_filter.mpr ⟨StableHlo.devRef_mem_tcRefs main_arg1, by decide⟩)).trans (V16_main_arg1 m (outs m) c),
        (h (Proc.devRef .tc main_arg2) (Finset.mem_filter.mpr ⟨StableHlo.devRef_mem_tcRefs main_arg2, by decide⟩)).trans (V16_main_arg2 m (outs m) c),
        (h (Proc.devRef .tc main_arg3) (Finset.mem_filter.mpr ⟨StableHlo.devRef_mem_tcRefs main_arg3, by decide⟩)).trans (V16_main_arg3 m (outs m) c),
        (h (Proc.devRef .tc main_arg4) (Finset.mem_filter.mpr ⟨StableHlo.devRef_mem_tcRefs main_arg4, by decide⟩)).trans (V16_main_arg4 m (outs m) c)⟩
    · iexact HSI

end Cert.KernelIdeal.Hand

end
-- ==== Proof.Spec.lean ====
import Idealize.ShloMosaic.PureOps.Ideal
import Mathlib.Data.EReal.Basic
import Mathlib.Data.EReal.Operations
import Mathlib.Algebra.BigOperators.Group.Finset.Basic
import Mathlib.Algebra.BigOperators.Fin
import Mathlib.Algebra.BigOperators.Ring.Finset
import Mathlib.Logic.Equiv.Fin.Basic
import Mathlib.Tactic.Ring
import Mathlib.Tactic.NormNum

noncomputable section

namespace Cert.Spec

open scoped BigOperators
open Idealize.ShloMosaic

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih =>
    rw [Finset.sum_insert ha, Finset.sum_insert ha, ih, EReal.coe_add]

theorem coe_mul3 (a b c : ℝ) :
    ((a : EReal) * (b : EReal)) * (c : EReal) = ((a * b * c : ℝ) : EReal) := by
  rw [EReal.coe_mul, EReal.coe_mul]

theorem sum_blocks_gen {M : Type*} [AddCommMonoid M] (n b : ℕ) (f : Fin (n * b) → M) :
    ∑ k : Fin n, ∑ r : Fin b, f (finProdFinEquiv (k, r)) = ∑ j : Fin (n * b), f j :=
  (Fintype.sum_prod_type (fun p : Fin n × Fin b => f (finProdFinEquiv p))).symm.trans
    (Fintype.sum_equiv finProdFinEquiv _ _ (fun _ => rfl))

theorem sum_blocks {M : Type*} [AddCommMonoid M] (f : Fin 8192 → M) :
    ∑ k : Fin 16, ∑ r : Fin 512, f ⟨512 * k.val + r.val, by omega⟩ = ∑ j : Fin 8192, f j := by
  rw [← sum_blocks_gen 16 512 f]
  refine Finset.sum_congr rfl (fun k _ => Finset.sum_congr rfl (fun r _ => ?_))
  congr 1
  apply Fin.ext
  show 512 * k.val + r.val = r.val + 512 * k.val
  omega

def accUpTo {M : Type*} [AddCommMonoid M] (d : ℕ → M) : ℕ → M
  | 0 => 0 + d 0
  | n + 1 => accUpTo d n + d (n + 1)

theorem accUpTo_eq {M : Type*} [AddCommMonoid M] (d : ℕ → M) (n : ℕ) :
    accUpTo d n = ∑ k ∈ Finset.range (n + 1), d k := by
  induction n with
  | zero => simp [accUpTo]
  | succ n ih => rw [accUpTo, ih, Finset.sum_range_succ _ (n + 1)]

theorem accUpTo_fin16 {M : Type*} [AddCommMonoid M] (d : ℕ → M) :
    accUpTo d 15 = ∑ k : Fin 16, d k.val := by
  rw [accUpTo_eq]
  exact Finset.sum_range (fun k => d k)

def δ {n : ℕ} (a b : Fin n) : EReal := if a = b then 1 else 0

theorem δ_eq_coe {n : ℕ} (a b : Fin n) :
    δ a b = ((if a = b then (1 : ℝ) else 0 : ℝ) : EReal) := by
  unfold δ
  split_ifs <;> simp

theorem filter_expand_real {n : ℕ} (D : Fin n → Fin n → ℝ) (h : ℝ) (p q : Fin n) :
    ∑ r : Fin n, (h * (if p = r then (1 : ℝ) else 0) - D p r) * ((if r = q then (1 : ℝ) else 0) + D r q)
      = h * (if p = q then (1 : ℝ) else 0) + (h - 1) * D p q - ∑ r : Fin n, D p r * D r q := by
  have hterm : ∀ r : Fin n,
      (h * (if p = r then (1 : ℝ) else 0) - D p r) * ((if r = q then (1 : ℝ) else 0) + D r q)
        = (if p = r then h * ((if r = q then (1 : ℝ) else 0) + D r q) else 0)
          - (if r = q then D p r else 0) - D p r * D r q := by
    intro r
    split_ifs <;> ring
  simp only [hterm, Finset.sum_sub_distrib, Finset.sum_ite_eq, Finset.sum_ite_eq', Finset.mem_univ,
    if_true]
  ring

theorem filter_expand {n : ℕ} (D : Fin n → Fin n → ℝ) (h : ℝ) (p q : Fin n) :
    ∑ r : Fin n, (((h : EReal) * δ p r) - (D p r : EReal)) * (δ r q + (D r q : EReal))
      = (((h : EReal) * δ p q) + (((h - 1 : ℝ) : EReal) * (D p q : EReal)))
        - ∑ r : Fin n, (D p r : EReal) * (D r q : EReal) := by
  simp only [δ_eq_coe, ← EReal.coe_mul, ← EReal.coe_sub, ← EReal.coe_add, coe_sum]
  rw [filter_expand_real D h p q]

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_pos_inf : Ideal.ofBits .f32 0x7F800000#32 = (⊤ : EReal) := by
  simp [Ideal.ofBits, Ideal.ieee]

end Cert.Spec

end
-- ==== Proof.RefValue.lean ====
import proofs.«127071_j953482740188_1_alg».proof.Proof.RefRead
import proofs.«127071_j953482740188_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo
open scoped BigOperators

def lsm {F : FTy → Type} [FloatOps F] (z : (⟨S8192x2, .f32⟩ : BufTy).Contents (Elt F)) :
    (⟨S8192x2, .f32⟩ : BufTy).Contents (Elt F) :=
  let rowMax : (⟨S8192, .f32⟩ : BufTy).Contents (Elt F) :=
    Host.reduce FloatOps.maximumf z (constant (F := F) S_ .f32 0xFF800000#32) reducesTo_S8192x2_S8192_d1 h_S_
  let negInf : (⟨S8192, .f32⟩ : BufTy).Contents (Elt F) :=
    broadcastInDim S8192 ![] bcast_S_S8192 (constant (F := F) S_ .f32 0xFF800000#32)
  let m : (⟨S8192, .f32⟩ : BufTy).Contents (Elt F) := maximumf negInf rowMax
  let mCol : (⟨S8192x1, .f32⟩ : BufTy).Contents (Elt F) := broadcastInDim S8192x1 ![0] bcast_S8192_S8192x1_0 m
  let mFull : (⟨S8192x2, .f32⟩ : BufTy).Contents (Elt F) := broadcastInDim S8192x2 ![0, 1] bcast_S8192x1_S8192x2_0_1 mCol
  let shifted : (⟨S8192x2, .f32⟩ : BufTy).Contents (Elt F) := subf z mFull
  let e : (⟨S8192x2, .f32⟩ : BufTy).Contents (Elt F) := Host.exp shifted
  let s : (⟨S8192, .f32⟩ : BufTy).Contents (Elt F) :=
    Host.reduceAdd e (constant (F := F) S_ .f32 0x00000000#32) reducesTo_S8192x2_S8192_d1 h_S_
  let sCol : (⟨S8192x1, .f32⟩ : BufTy).Contents (Elt F) := broadcastInDim S8192x1 ![0] bcast_S8192_S8192x1_0 s
  let l : (⟨S8192x1, .f32⟩ : BufTy).Contents (Elt F) := Host.log sCol
  let lFull : (⟨S8192x2, .f32⟩ : BufTy).Contents (Elt F) := broadcastInDim S8192x2 ![0, 1] bcast_S8192x1_S8192x2_0_1 l
  subf shifted lFull

theorem v35_eq_lsm {F : FTy → Type} [FloatOps F]
    (x0 : (⟨S8192x512, .f32⟩ : BufTy).Contents (Elt F)) (x1 : (⟨S8192x8192, .f32⟩ : BufTy).Contents (Elt F))
    (x2 : (⟨S512x256, .f32⟩ : BufTy).Contents (Elt F)) (x3 : (⟨S256x2, .f32⟩ : BufTy).Contents (Elt F))
    (x4 : (⟨S2, .f32⟩ : BufTy).Contents (Elt F)) :
    val_main_v35 (F := F) x0 x1 x2 x3 x4
      = lsm (addf (val_main_v31 (F := F) x0 x1 x2 x3) (val_main_v33 (F := F) x4)) := rfl

theorem v28_at (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (P : Fin 8192) (f : Fin 256) :
    val_main_v28 (F := Ideal) x0 x1 x2 (ix2 P f)
      = ∑ r : Fin 8192, val_main_v26 (F := Ideal) x1 (ix2 P r) * val_main_v27 (F := Ideal) x0 x2 (ix2 r f) := by
  rw [val_main_v28_apply]
  refine Finset.sum_congr rfl fun r _ => ?_
  have el : lidx_main_v28 (ix2 P f) r = ix2 P r :=
    funext fun a => Fin.ext (by match a with | ⟨0, _⟩ => rfl | ⟨1, _⟩ => rfl)
  have er : ridx_main_v28 (ix2 P f) r = ix2 r f :=
    funext fun a => Fin.ext (by match a with | ⟨0, _⟩ => rfl | ⟨1, _⟩ => rfl)
  rw [el, er]

theorem v29_at (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (P : Fin 8192) (f : Fin 256) :
    val_main_v29 (F := Ideal) x0 x1 x2 (ix2 P f)
      = FloatOps.maximumf (val_main_v28 (F := Ideal) x0 x1 x2 (ix2 P f)) (Ideal.ofBits .f32 0x00000000#32) := by
  rw [val_main_v29_apply, val_main_call4_v0_apply, val_main_call4_cst_apply]
  rfl

theorem v31_at (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (P : Fin 8192) (f : Fin 2) :
    val_main_v31 (F := Ideal) x0 x1 x2 x3 (ix2 P f)
      = ∑ r : Fin 8192, val_main_v26 (F := Ideal) x1 (ix2 P r) * val_main_v30 (F := Ideal) x0 x1 x2 x3 (ix2 r f) := by
  rw [val_main_v31_apply]
  refine Finset.sum_congr rfl fun r _ => ?_
  have el : lidx_main_v31 (ix2 P f) r = ix2 P r :=
    funext fun a => Fin.ext (by match a with | ⟨0, _⟩ => rfl | ⟨1, _⟩ => rfl)
  have er : ridx_main_v31 (ix2 P f) r = ix2 r f :=
    funext fun a => Fin.ext (by match a with | ⟨0, _⟩ => rfl | ⟨1, _⟩ => rfl)
  rw [el, er]

def dadR (x1 : (⟨S8192x8192, .f32⟩ : BufTy).Contents (Elt Ideal)) (p q : Fin 8192) : EReal :=
  (val_main_v4 (F := Ideal) x1 (ix1 p) * x1 (ix2 p q)) * val_main_v9 (F := Ideal) x1 (ix1 q)

theorem rowSum_real (x1 : (⟨S8192x8192, .f32⟩ : BufTy).Contents (Elt Ideal))
    (hfin : ∀ i, ∃ a : ℝ, x1 i = (a : EReal)) (p : Fin 8192) :
    ∃ s : ℝ, val_main_v0 (F := Ideal) x1 (ix1 p) = (s : EReal) := by
  choose a ha using hfin
  refine ⟨∑ k : Fin 8192, a (idx_main_v0 (ix1 p) k), ?_⟩
  rw [val_main_v0_apply, val_main_cst_apply, Ideal.ofBits_def, Ideal.ofBits_zero_f32, zero_add]
  simp only [ha]
  exact Cert.Spec.coe_sum _ _

theorem colSum_real (x1 : (⟨S8192x8192, .f32⟩ : BufTy).Contents (Elt Ideal))
    (hfin : ∀ i, ∃ a : ℝ, x1 i = (a : EReal)) (q : Fin 8192) :
    ∃ s : ℝ, val_main_v5 (F := Ideal) x1 (ix1 q) = (s : EReal) := by
  choose a ha using hfin
  refine ⟨∑ k : Fin 8192, a (idx_main_v5 (ix1 q) k), ?_⟩
  rw [val_main_v5_apply, val_main_cst_2_apply, Ideal.ofBits_def, Ideal.ofBits_zero_f32, zero_add]
  simp only [ha]
  exact Cert.Spec.coe_sum _ _

theorem dRow_real (x1 : (⟨S8192x8192, .f32⟩ : BufTy).Contents (Elt Ideal))
    (hfin : ∀ i, ∃ a : ℝ, x1 i = (a : EReal)) (p : Fin 8192) :
    ∃ d : ℝ, val_main_v4 (F := Ideal) x1 (ix1 p) = (d : EReal) := by
  obtain ⟨s, hs⟩ := rowSum_real x1 hfin p
  rw [val_main_v4_apply, val_main_v2_apply, hs, val_main_v1_apply, val_main_cst_0_apply,
    val_main_call1_v1_apply, val_main_call1_v0_apply, val_main_cst_1_apply]
  simp only [Ideal.ofBits_def, Ideal.hostPowf_def, Cert.Spec.ofBits_neg_half, Ideal.ofBits_zero_f32,
    Ideal.pow_coe_coe]
  unfold Scalar.select
  split_ifs
  · exact ⟨0, EReal.coe_zero.symm⟩
  · exact ⟨_, rfl⟩

theorem dCol_real (x1 : (⟨S8192x8192, .f32⟩ : BufTy).Contents (Elt Ideal))
    (hfin : ∀ i, ∃ a : ℝ, x1 i = (a : EReal)) (q : Fin 8192) :
    ∃ d : ℝ, val_main_v9 (F := Ideal) x1 (ix1 q) = (d : EReal) := by
  obtain ⟨s, hs⟩ := colSum_real x1 hfin q
  rw [val_main_v9_apply, val_main_v7_apply, hs, val_main_v6_apply, val_main_cst_3_apply,
    val_main_call3_v1_apply, val_main_call3_v0_apply, val_main_cst_4_apply]
  simp only [Ideal.ofBits_def, Ideal.hostPowf_def, Cert.Spec.ofBits_neg_half, Ideal.ofBits_zero_f32,
    Ideal.pow_coe_coe]
  unfold Scalar.select
  split_ifs
  · exact ⟨0, EReal.coe_zero.symm⟩
  · exact ⟨_, rfl⟩

theorem ofNat32_inj {a b : Fin 8192} (h : BitVec.ofNat 32 a.val = BitVec.ofNat 32 b.val) : a = b := by
  have h' := congrArg BitVec.toNat h
  rw [BitVec.toNat_ofNat, BitVec.toNat_ofNat] at h'
  have ha := a.isLt
  have hb := b.isLt
  exact Fin.ext (by omega)

theorem eye_at (a b : Fin 8192) : val_main_v21 (F := Ideal) (ix2 a b) = Cert.Spec.δ a b := by
  rw [val_main_v21_apply, val_main_v20_apply, val_main_v19_apply, val_main_v16_apply, val_main_v18_apply,
    val_main_c_apply, val_main_v17_apply]
  show (((IntOp.cmpi .eq (IntOp.addi (BitVec.ofNat 32 a.val) 0#32) (BitVec.ofNat 32 b.val)).toNat : ℝ) : EReal) = _
  unfold Cert.Spec.δ
  by_cases hab : a = b
  · subst hab
    rw [if_pos rfl, IntOp.cmpi_eq.2 (by simp [IntOp.addi])]
    simp
  · have hc : IntOp.cmpi .eq (IntOp.addi (BitVec.ofNat 32 a.val) 0#32) (BitVec.ofNat 32 b.val) = 0#1 :=
      eq_zero_of_ne_one (fun h => hab (ofNat32_inj (by
        have h2 := IntOp.cmpi_eq.1 h
        simpa [IntOp.addi] using h2)))
    rw [if_neg hab, hc]
    simp

theorem dad_at (x1 : (⟨S8192x8192, .f32⟩ : BufTy).Contents (Elt Ideal)) (p q : Fin 8192) :
    val_main_v15 (F := Ideal) x1 (ix2 p q) = dadR x1 p q := by
  have e1 : idx_main_v10 (idx_main_v11 (ix2 p q)) = ix1 p :=
    funext fun a => Fin.ext (by match a with | ⟨0, _⟩ => rfl)
  have e2 : idx_main_v13 (idx_main_v14 (ix2 p q)) = ix1 q :=
    funext fun a => Fin.ext (by match a with | ⟨0, _⟩ => rfl)
  rw [val_main_v15_apply, val_main_v12_apply, val_main_v11_apply, val_main_v10_apply,
    val_main_v14_apply, val_main_v13_apply, e1, e2]
  rfl

theorem v26_sum (x1 : (⟨S8192x8192, .f32⟩ : BufTy).Contents (Elt Ideal)) (P Q : Fin 8192) :
    val_main_v26 (F := Ideal) x1 (ix2 P Q)
      = ∑ r : Fin 8192, ((Ideal.ofBits .f32 0x3F000000#32 * Cert.Spec.δ P r) - dadR x1 P r)
          * (Cert.Spec.δ r Q + dadR x1 r Q) := by
  rw [val_main_v26_apply]
  refine Finset.sum_congr rfl fun r _ => ?_
  have el : lidx_main_v26 (ix2 P Q) r = ix2 P r :=
    funext fun a => Fin.ext (by match a with | ⟨0, _⟩ => rfl | ⟨1, _⟩ => rfl)
  have er : ridx_main_v26 (ix2 P Q) r = ix2 r Q :=
    funext fun a => Fin.ext (by match a with | ⟨0, _⟩ => rfl | ⟨1, _⟩ => rfl)
  rw [el, er, val_main_v24_apply, val_main_v25_apply, val_main_v23_apply, val_main_v22_apply,
    val_main_cst_5_apply, eye_at P r, eye_at r Q, dad_at x1 P r, dad_at x1 r Q]
  rfl

theorem v26_at (x1 : (⟨S8192x8192, .f32⟩ : BufTy).Contents (Elt Ideal))
    (hfin : ∀ i, ∃ a : ℝ, x1 i = (a : EReal)) (P Q : Fin 8192) :
    val_main_v26 (F := Ideal) x1 (ix2 P Q)
      = ((Ideal.ofBits .f32 0x3F000000#32 * Cert.Spec.δ P Q) + (Ideal.ofBits .f32 0xBF000000#32 * dadR x1 P Q))
        - ∑ r : Fin 8192, dadR x1 P r * dadR x1 r Q := by
  obtain ⟨D, hD⟩ : ∃ D : Fin 8192 → Fin 8192 → ℝ, ∀ p q, dadR x1 p q = (D p q : EReal) := by
    choose dr hdr using dRow_real x1 hfin
    choose dc hdc using dCol_real x1 hfin
    choose a ha using hfin
    exact ⟨fun p q => dr p * a (ix2 p q) * dc q, fun p q => by
      unfold dadR; rw [hdr p, ha (ix2 p q), hdc q, Cert.Spec.coe_mul3]⟩
  have h12 : ((1 / 2 : ℝ) - 1) = -(1 / 2) := by norm_num
  rw [v26_sum]
  simp only [hD, Cert.Spec.ofBits_half, Cert.Spec.ofBits_neg_half]
  rw [Cert.Spec.filter_expand D (1 / 2) P Q, h12]

end Cert.ReferenceIdeal.RefValue

end
-- ==== Proof.KI.HostGlue.lean ====
import proofs.«127071_j953482740188_1_alg».proof.Proof.KI.Fold
import proofs.«127071_j953482740188_1_alg».proof.Proof.RefValue
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx

variable {F : FTy → Type} [FloatOps F]
variable (m : (ℓ : Loc nD τ sig) → Buf (Elt F) ℓ)

/-- No host stretch before the first region writes an argument: its buffer is as launched. -/
theorem V9_arg (c : Dev nD) {r : Ref sig .tc} (hr : r ∈ [main_arg0, main_arg1, main_arg2, main_arg3, main_arg4]) :
    V9 m c r = m ((c.tc : Thread nD τ).loc r) := by
  simp only [List.mem_cons, List.not_mem_nil, or_false] at hr
  rcases hr with rfl | rfl | rfl | rfl | rfl <;>
    exact (V9_of m c _ (by decide)).trans <| (V8_of m c _ (by decide)).trans <| (V7_of m c _ (by decide)).trans <| (V6_of m c _ (by decide)).trans <| (V5_of m c _ (by decide)).trans <| (V4_of m c _ (by decide)).trans <| (V3_of m c _ (by decide)).trans <| (V2_of m c _ (by decide)).trans <| (V1_of m c _ (by decide)).trans rfl

theorem E0_arg1 (c : Dev nD) : E0 m c main_arg1 = m ((c.tc : Thread nD τ).loc main_arg1) := V9_arg m c (by decide)

theorem X10_of (c : Dev nD) (r : Ref sig .tc) (h : r ∉ ([main_v12] : List (Ref sig .tc))) : X10 m c r = V9 m c r :=
  Function.update_of_ne (StableHlo.devRef_ne_of_ne (List.ne_of_not_mem_cons h) : (Proc.devRef .tc r : DevRef τ sig) ≠ Proc.devRef .tc main_v12) _ _
theorem X11_of (c : Dev nD) (r : Ref sig .tc) (h : r ∉ hostOps1_W) : X11 m c r = X10 m c r :=
  StableHlo.after_of_writes_sub hostOps1 _ hostOps1_writes h
theorem X12_of (c : Dev nD) (r : Ref sig .tc) (h : r ∉ ([main_v14] : List (Ref sig .tc))) : X12 m c r = X11 m c r :=
  Function.update_of_ne (StableHlo.devRef_ne_of_ne (List.ne_of_not_mem_cons h) : (Proc.devRef .tc r : DevRef τ sig) ≠ Proc.devRef .tc main_v14) _ _
theorem X13_of (c : Dev nD) (r : Ref sig .tc) (h : r ∉ hostOps2_W) : X13 m c r = X12 m c r :=
  StableHlo.after_of_writes_sub hostOps2 _ hostOps2_writes h
theorem X14_of (c : Dev nD) (r : Ref sig .tc) (h : r ∉ ([main_v16] : List (Ref sig .tc))) : X14 m c r = X13 m c r :=
  Function.update_of_ne (StableHlo.devRef_ne_of_ne (List.ne_of_not_mem_cons h) : (Proc.devRef .tc r : DevRef τ sig) ≠ Proc.devRef .tc main_v16) _ _

theorem E1_v12 (c : Dev nD) : E1 m c main_v12 = o10 m c :=
  (X11_of m c main_v12 (by decide)).trans (Function.update_self ..)

theorem E1_v13 (c : Dev nD) : E1 m c main_v13
    = Cert.ReferenceIdeal.ReadP.val_main_v27 (F := F) (m ((c.tc : Thread nD τ).loc main_arg0)) (m ((c.tc : Thread nD τ).loc main_arg2)) := by
  have h : E1 m c main_v13 = Host.dotGeneral dot_S8192x512_S512x256_S8192x256_1_0_0_1_n_n none (X10 m c main_arg0) (X10 m c main_arg2) := by
    show StableHlo.after hostOps1 (X10 m c) (Proc.devRef .tc main_v13) = _
    after_results
  rw [h, X10_of m c main_arg0 (by decide), X10_of m c main_arg2 (by decide), V9_arg m c (r := main_arg0) (by decide), V9_arg m c (r := main_arg2) (by decide)]
  rfl

theorem E2_v12 (c : Dev nD) : E2 m c main_v12 = o10 m c :=
  (X13_of m c main_v12 (by decide)).trans <| (X12_of m c main_v12 (by decide)).trans (E1_v12 m c)

theorem E2_v15 (c : Dev nD) : E2 m c main_v15
    = Host.dotGeneral Cert.ReferenceIdeal.dot_S8192x256_S256x2_S8192x2_1_0_0_1_n_n none (o12 m c) (m ((c.tc : Thread nD τ).loc main_arg3)) := by
  have h : E2 m c main_v15 = Host.dotGeneral dot_S8192x256_S256x2_S8192x2_1_0_0_1_n_n none (X12 m c main_v14) (X12 m c main_arg3) := by
    show StableHlo.after hostOps2 (X12 m c) (Proc.devRef .tc main_v15) = _
    after_results
  rw [h, show X12 m c main_v14 = o12 m c from Function.update_self .., X12_of m c main_arg3 (by decide), X11_of m c main_arg3 (by decide),
    X10_of m c main_arg3 (by decide), V9_arg m c (r := main_arg3) (by decide)]
  rfl

theorem hostOps3_v19 (V : Valuation τ sig (Elt F)) :
    (StableHlo.after hostOps3 V (Proc.devRef .tc main_v19) : (⟨S8192x2, .f32⟩ : BufTy).Contents (Elt F))
      = addf (V (Proc.devRef .tc main_v16) : (⟨S8192x2, .f32⟩ : BufTy).Contents (Elt F))
          (Cert.ReferenceIdeal.ReadP.val_main_v33 (F := F) (V (Proc.devRef .tc main_arg4))) := by
  after_results
  rfl

theorem hostOps3_1_v20 (V : Valuation τ sig (Elt F)) :
    (StableHlo.after hostOps3_1 V (Proc.devRef .tc main_v20) : (⟨S8192x2, .f32⟩ : BufTy).Contents (Elt F))
      = Cert.ReferenceIdeal.RefValue.lsm (V (Proc.devRef .tc main_v19)) := by
  after_results
  simp only [StableHlo.TRef.ofBuf, StableHlo.TRef.toBuf, cast_eq]
  rfl

theorem result_eq (c : Dev nD) : V16 m (outs m) c main_v20
    = Cert.ReferenceIdeal.RefValue.lsm (addf (o14 m c) (Cert.ReferenceIdeal.ReadP.val_main_v33 (F := F) (m ((c.tc : Thread nD τ).loc main_arg4)))) := by
  have h14 : X14 m c main_v16 = o14 m c := Function.update_self ..
  have h4 : X14 m c main_arg4 = m ((c.tc : Thread nD τ).loc main_arg4) :=
    (X14_of m c main_arg4 (by decide)).trans <| (X13_of m c main_arg4 (by decide)).trans <| (X12_of m c main_arg4 (by decide)).trans <|
      (X11_of m c main_arg4 (by decide)).trans <| (X10_of m c main_arg4 (by decide)).trans (V9_arg m c (by decide))
  show StableHlo.after hostOps3_1 (StableHlo.after hostOps3 (V14 m (outs m) c)) (Proc.devRef .tc main_v20) = _
  rw [hostOps3_1_v20, hostOps3_v19, V14_eq, h14, h4]

theorem hostOps0_v2 (V : Valuation τ sig (Elt F)) :
    (StableHlo.after hostOps0 V (Proc.devRef .tc main_v2) : (⟨S8192, .f32⟩ : BufTy).Contents (Elt F))
      = Cert.ReferenceIdeal.ReadP.val_main_v2 (F := F) (V (Proc.devRef .tc main_arg1)) := by
  after_results
  rfl

theorem hostOps0_1_v3 (V : Valuation τ sig (Elt F)) :
    (StableHlo.after hostOps0_1 V (Proc.devRef .tc main_v3) : (⟨S8192, .i1⟩ : BufTy).Contents (Elt F))
      = cmpf .oeq (Host.absf (V (Proc.devRef .tc main_v2) : (⟨S8192, .f32⟩ : BufTy).Contents (Elt F)))
          (Cert.ReferenceIdeal.ReadP.val_main_call0_v1 (F := F)) := by
  after_results
  simp only [StableHlo.TRef.ofBuf, StableHlo.TRef.toBuf, cast_eq]
  rfl

theorem hostOps0_2_cst_1 (V : Valuation τ sig (Elt F)) :
    (StableHlo.after hostOps0_2 V (Proc.devRef .tc main_cst_1) : (⟨S_, .f32⟩ : BufTy).Contents (Elt F))
      = Cert.ReferenceIdeal.ReadP.val_main_cst_1 (F := F) := by
  after_results
  rfl

theorem hostOps0_3_v4 (V : Valuation τ sig (Elt F)) :
    (StableHlo.after hostOps0_3 V (Proc.devRef .tc main_v4) : (⟨S8192, .f32⟩ : BufTy).Contents (Elt F))
      = select (V (Proc.devRef .tc main_v3) : (⟨S8192, .i1⟩ : BufTy).Contents (Elt F))
          (broadcastInDim S8192 ![] bcast_S_S8192 (id (V (Proc.devRef .tc main_cst_1) : (⟨S_, .f32⟩ : BufTy).Contents (Elt F))))
          (V (Proc.devRef .tc main_v2) : (⟨S8192, .f32⟩ : BufTy).Contents (Elt F)) := by
  after_results
  simp only [StableHlo.TRef.ofBuf, StableHlo.TRef.toBuf, cast_eq]

theorem hostOps0_4_v5 (V : Valuation τ sig (Elt F)) :
    (StableHlo.after hostOps0_4 V (Proc.devRef .tc main_v5) : (⟨S8192x1, .f32⟩ : BufTy).Contents (Elt F))
      = shapeCast S8192x1 (V (Proc.devRef .tc main_v4) : (⟨S8192, .f32⟩ : BufTy).Contents (Elt F)) shapeCasts_S8192_S8192x1 := by
  after_results
  rfl

theorem hostOps0_4_v8 (V : Valuation τ sig (Elt F)) :
    (StableHlo.after hostOps0_4 V (Proc.devRef .tc main_v8) : (⟨S8192, .f32⟩ : BufTy).Contents (Elt F))
      = Cert.ReferenceIdeal.ReadP.val_main_v7 (F := F) (V (Proc.devRef .tc main_arg1)) := by
  after_results
  rfl

theorem hostOps0_5_v9 (V : Valuation τ sig (Elt F)) :
    (StableHlo.after hostOps0_5 V (Proc.devRef .tc main_v9) : (⟨S8192, .i1⟩ : BufTy).Contents (Elt F))
      = cmpf .oeq (Host.absf (V (Proc.devRef .tc main_v8) : (⟨S8192, .f32⟩ : BufTy).Contents (Elt F)))
          (Cert.ReferenceIdeal.ReadP.val_main_call2_v1 (F := F)) := by
  after_results
  simp only [StableHlo.TRef.ofBuf, StableHlo.TRef.toBuf, cast_eq]
  rfl

theorem hostOps0_6_cst_4 (V : Valuation τ sig (Elt F)) :
    (StableHlo.after hostOps0_6 V (Proc.devRef .tc main_cst_4) : (⟨S_, .f32⟩ : BufTy).Contents (Elt F))
      = Cert.ReferenceIdeal.ReadP.val_main_cst_4 (F := F) := by
  after_results
  rfl

theorem hostOps0_7_v10 (V : Valuation τ sig (Elt F)) :
    (StableHlo.after hostOps0_7 V (Proc.devRef .tc main_v10) : (⟨S8192, .f32⟩ : BufTy).Contents (Elt F))
      = select (V (Proc.devRef .tc main_v9) : (⟨S8192, .i1⟩ : BufTy).Contents (Elt F))
          (broadcastInDim S8192 ![] bcast_S_S8192 (id (V (Proc.devRef .tc main_cst_4) : (⟨S_, .f32⟩ : BufTy).Contents (Elt F))))
          (V (Proc.devRef .tc main_v8) : (⟨S8192, .f32⟩ : BufTy).Contents (Elt F)) := by
  after_results
  simp only [StableHlo.TRef.ofBuf, StableHlo.TRef.toBuf, cast_eq]

theorem hostOps0_8_v11 (V : Valuation τ sig (Elt F)) :
    (StableHlo.after hostOps0_8 V (Proc.devRef .tc main_v11) : (⟨S1x8192, .f32⟩ : BufTy).Contents (Elt F))
      = shapeCast S1x8192 (V (Proc.devRef .tc main_v10) : (⟨S8192, .f32⟩ : BufTy).Contents (Elt F)) shapeCasts_S8192_S1x8192 := by
  after_results
  rfl

theorem V4_arg1 (c : Dev nD) : V4 m c main_arg1 = m ((c.tc : Thread nD τ).loc main_arg1) :=
  (V4_of m c main_arg1 (by decide)).trans <| (V3_of m c main_arg1 (by decide)).trans <| (V2_of m c main_arg1 (by decide)).trans <| (V1_of m c main_arg1 (by decide)).trans rfl

theorem V4_v4 (c : Dev nD) : (V4 m c main_v4 : (⟨S8192, .f32⟩ : BufTy).Contents (Elt F))
    = Cert.ReferenceIdeal.ReadP.val_main_v4 (F := F) (m ((c.tc : Thread nD τ).loc main_arg1)) := by
  have e2 : (V1 m c main_v2 : (⟨S8192, .f32⟩ : BufTy).Contents (Elt F))
      = Cert.ReferenceIdeal.ReadP.val_main_v2 (F := F) (m ((c.tc : Thread nD τ).loc main_arg1)) := by
    show StableHlo.after hostOps0 (V0 m c) (Proc.devRef .tc main_v2) = _
    rw [hostOps0_v2]
  have e2' : (V3 m c main_v2 : (⟨S8192, .f32⟩ : BufTy).Contents (Elt F))
      = Cert.ReferenceIdeal.ReadP.val_main_v2 (F := F) (m ((c.tc : Thread nD τ).loc main_arg1)) :=
    (V3_of m c main_v2 (by decide)).trans <| (V2_of m c main_v2 (by decide)).trans e2
  have e3 : (V2 m c main_v3 : (⟨S8192, .i1⟩ : BufTy).Contents (Elt F))
      = Cert.ReferenceIdeal.ReadP.val_main_v3 (F := F) (m ((c.tc : Thread nD τ).loc main_arg1)) := by
    show StableHlo.after hostOps0_1 (V1 m c) (Proc.devRef .tc main_v3) = _
    rw [hostOps0_1_v3, e2]
    rfl
  have e3' : (V3 m c main_v3 : (⟨S8192, .i1⟩ : BufTy).Contents (Elt F))
      = Cert.ReferenceIdeal.ReadP.val_main_v3 (F := F) (m ((c.tc : Thread nD τ).loc main_arg1)) :=
    (V3_of m c main_v3 (by decide)).trans e3
  have ec : (V3 m c main_cst_1 : (⟨S_, .f32⟩ : BufTy).Contents (Elt F)) = Cert.ReferenceIdeal.ReadP.val_main_cst_1 (F := F) := by
    show StableHlo.after hostOps0_2 (V2 m c) (Proc.devRef .tc main_cst_1) = _
    rw [hostOps0_2_cst_1]
  show StableHlo.after hostOps0_3 (V3 m c) (Proc.devRef .tc main_v4) = _
  rw [hostOps0_3_v4, e2', e3', ec]
  rfl

theorem V8_v10 (c : Dev nD) : (V8 m c main_v10 : (⟨S8192, .f32⟩ : BufTy).Contents (Elt F))
    = Cert.ReferenceIdeal.ReadP.val_main_v9 (F := F) (m ((c.tc : Thread nD τ).loc main_arg1)) := by
  have e8 : (V5 m c main_v8 : (⟨S8192, .f32⟩ : BufTy).Contents (Elt F))
      = Cert.ReferenceIdeal.ReadP.val_main_v7 (F := F) (m ((c.tc : Thread nD τ).loc main_arg1)) := by
    show StableHlo.after hostOps0_4 (V4 m c) (Proc.devRef .tc main_v8) = _
    rw [hostOps0_4_v8, V4_arg1]
  have e8' : (V7 m c main_v8 : (⟨S8192, .f32⟩ : BufTy).Contents (Elt F))
      = Cert.ReferenceIdeal.ReadP.val_main_v7 (F := F) (m ((c.tc : Thread nD τ).loc main_arg1)) :=
    (V7_of m c main_v8 (by decide)).trans <| (V6_of m c main_v8 (by decide)).trans e8
  have e9 : (V6 m c main_v9 : (⟨S8192, .i1⟩ : BufTy).Contents (Elt F))
      = Cert.ReferenceIdeal.ReadP.val_main_v8 (F := F) (m ((c.tc : Thread nD τ).loc main_arg1)) := by
    show StableHlo.after hostOps0_5 (V5 m c) (Proc.devRef .tc main_v9) = _
    rw [hostOps0_5_v9, e8]
    rfl
  have e9' : (V7 m c main_v9 : (⟨S8192, .i1⟩ : BufTy).Contents (Elt F))
      = Cert.ReferenceIdeal.ReadP.val_main_v8 (F := F) (m ((c.tc : Thread nD τ).loc main_arg1)) :=
    (V7_of m c main_v9 (by decide)).trans e9
  have ec : (V7 m c main_cst_4 : (⟨S_, .f32⟩ : BufTy).Contents (Elt F)) = Cert.ReferenceIdeal.ReadP.val_main_cst_4 (F := F) := by
    show StableHlo.after hostOps0_6 (V6 m c) (Proc.devRef .tc main_cst_4) = _
    rw [hostOps0_6_cst_4]
  show StableHlo.after hostOps0_7 (V7 m c) (Proc.devRef .tc main_v10) = _
  rw [hostOps0_7_v10, e8', e9', ec]
  rfl

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem E0_v5_at (c : Dev nD) (p : Fin 8192) :
    (E0 m c main_v5 : Vec F S8192x1 .f32) (ix2 p 0)
      = Cert.ReferenceIdeal.ReadP.val_main_v4 (F := F) (m ((c.tc : Thread nD τ).loc main_arg1)) (ix1 p) := by
  have h : (E0 m c main_v5 : Vec F S8192x1 .f32)
      = shapeCast S8192x1 (Cert.ReferenceIdeal.ReadP.val_main_v4 (F := F) (m ((c.tc : Thread nD τ).loc main_arg1))) shapeCasts_S8192_S8192x1 := by
    refine ((V9_of m c main_v5 (by decide)).trans <| (V8_of m c main_v5 (by decide)).trans <| (V7_of m c main_v5 (by decide)).trans <|
      (V6_of m c main_v5 (by decide)).trans ?_)
    show StableHlo.after hostOps0_4 (V4 m c) (Proc.devRef .tc main_v5) = _
    rw [hostOps0_4_v5, V4_v4]
  rw [h]
  exact shapeCast_a_a1_apply _ _ p 0

theorem E0_v11_at (c : Dev nD) (q : Fin 8192) :
    (E0 m c main_v11 : Vec F S1x8192 .f32) (ix2 0 q)
      = Cert.ReferenceIdeal.ReadP.val_main_v9 (F := F) (m ((c.tc : Thread nD τ).loc main_arg1)) (ix1 q) := by
  have h : (E0 m c main_v11 : Vec F S1x8192 .f32)
      = shapeCast S1x8192 (Cert.ReferenceIdeal.ReadP.val_main_v9 (F := F) (m ((c.tc : Thread nD τ).loc main_arg1))) shapeCasts_S8192_S1x8192 := by
    show StableHlo.after hostOps0_8 (V8 m c) (Proc.devRef .tc main_v11) = _
    rw [hostOps0_8_v11, V8_v10]
  rw [h]
  exact shapeCast_a_1a_apply _ _ 0 q

end Cert.KernelIdeal.Hand

end
-- ==== Proof.KI.R1Value.lean ====
import proofs.«127071_j953482740188_1_alg».proof.Proof.KI.R1Frame
import proofs.«127071_j953482740188_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Pieces
variable {F : FTy → Type} [FloatOps F]

theorem hzR1 : (![0, 0] : Fin 2 → Nat) = fun _ => 0 := funext fun a => by fin_cases a <;> rfl

section
variable {c : Dev nD} {i : grid1.Coords} {a2 : Memref sig .tc .vmem S512x512 .f32} {h2 : a2.IsWhole} {a3 a4 a5 : Memref sig .tc .vmem S512x256 .f32} {h3 : a3.IsWhole} {h4 : a4.IsWhole} {h5 : a5.IsWhole}
  {x0 : Vec F S512x512 .f32} {x1 xs : Vec F S512x256 .f32}

-- the reset's store, read back whole, then one covering store
theorem rdA1 {hc0 : cond1_0 i} {hc1 : ¬cond1_1 i} : rd1 (kernelRun1_A c i a2 h2 a3 h3 a4 h4 a5 h5 hc0 hc1 x0 x1).2.1 = k1_pay2 (k1_pay1 (F := F)) x0 x1 := by
  unfold rd1
  rw [View.read_writes_eq_canon _ _ _ (View.cover_of_tiledL _ _ tiledA1)]
  unfold kernelRun1_A
  dsimp only
  sl_unfold_words
  rw [View.canon_cons_unit_zero (S := S512x256) hzR1, View.readCov_unit_zero (S := S512x256) _ hzR1]
  simp only [View.readAt_eq_ld, h2.read_unread, h3.read_unread, View.ld_unit_zero (S := S512x256) hzR1, View.ld_unit_zero (S := S512x512) hzR1]

-- one covering store of the update
theorem rdB1 {hc0 : ¬cond1_0 i} {hc1 : ¬cond1_1 i} : rd1 (kernelRun1_B c i a2 h2 a3 h3 a4 h4 a5 h5 hc0 hc1 x0 x1 xs).2.1 = k1_pay2 xs x0 x1 := by
  unfold rd1
  rw [View.read_writes_eq_canon _ _ _ (View.cover_of_tiledL _ _ tiledB1)]
  unfold kernelRun1_B
  dsimp only
  rw [View.canon_unit_zero hzR1]
  simp only [View.readAt_eq_ld, h2.read_unread, h3.read_unread, h5.read_unread, View.ld_unit_zero (S := S512x256) hzR1, View.ld_unit_zero (S := S512x512) hzR1]

theorem rdC1 {hc0 : ¬cond1_0 i} {hc1 : cond1_1 i} : rd1 (kernelRun1_C c i a2 h2 a3 h3 a4 h4 a5 h5 hc0 hc1 x0 x1 xs).2.1 = k1_pay2 xs x0 x1 := by
  unfold rd1
  rw [View.read_writes_eq_canon _ _ _ (View.cover_of_tiledL _ _ tiledC1)]
  unfold kernelRun1_C
  dsimp only
  sl_unfold_words
  rw [View.canon_unit_zero hzR1]
  simp only [View.readAt_eq_ld, h2.read_unread, h3.read_unread, h5.read_unread, View.ld_unit_zero (S := S512x256) hzR1, View.ld_unit_zero (S := S512x512) hzR1]

-- the larger of the accumulator's new value, read back whole, and zero
theorem rdO1 {hc0 : ¬cond1_0 i} {hc1 : cond1_1 i} : rd1 (kernelRun1_C c i a2 h2 a3 h3 a4 h4 a5 h5 hc0 hc1 x0 x1 xs).1 = k1_pay3 (k1_pay2 xs x0 x1) := by
  unfold rd1
  rw [View.read_writes_eq_canon _ _ _ (View.cover_of_tiledL _ _ tiledO1)]
  unfold kernelRun1_C
  dsimp only
  sl_unfold_words
  rw [View.canon_unit_zero hzR1, View.readCov_unit_zero (S := S512x256) _ hzR1]
  simp only [View.readAt_eq_ld, h2.read_unread, h3.read_unread, h5.read_unread, View.ld_unit_zero (S := S512x256) hzR1, View.ld_unit_zero (S := S512x512) hzR1]
end

variable (V : (c : Dev nD) → (b : Ref sig .tc) → Buf (Elt F) ((c : Thread nD τ).loc b)) (c : Dev nD) (t : Fin cfg1.N)

-- every step leaves the update of what it found (of the zero block at a first step) by the two input blocks
theorem step1_eq (xs : Vec F S512x256 .f32) :
    step1 V c t xs = k1_pay2 (if t.val % 16 = 0 then k1_pay1 else xs) (iblk1 V c 0 t) (iblk1 V c 1 t) := by
  unfold step1
  by_cases h0 : t.val % 16 = 0
  · rw [dif_pos h0, if_pos h0]; exact rdA1
  · rw [dif_neg h0, if_neg h0]
    by_cases h1 : t.val % 16 = 15
    · rw [dif_pos h1]; exact rdC1
    · rw [dif_neg h1]; exact rdB1

-- a last step stores the larger of the accumulator's new value and zero
theorem out1_eq (h1 : t.val % 16 = 15) : out1 V c t = k1_pay3 (acc1 V c (t.val + 1) t.isLt) := by
  unfold out1
  rw [dif_pos h1]
  refine rdO1.trans (congrArg (k1_pay3 (F := F)) ?_)
  show _ = step1 V c t _
  rw [step1_eq, if_neg (by omega)]

end Pieces

section Payloads

theorem k1_mm_lhs_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem k1_mm_lhs_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem k1_mm_rhs_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem k1_mm_rhs_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

theorem k1_mm_apply {φ₁ φ₂ : FTy} (a : FVec Ideal S512x512 φ₁) (b : FVec Ideal S512x256 φ₂) (p : Fin 512) (q : Fin 256) :
    FloatOps.matmul dot_S512x512_S512x256_S512x256_1_0_0_1_n_n none a b (constant (F := Ideal) S512x256 .f32 0x00000000#32) (ix2 p q)
      = ∑ r : Fin 512, a (ix2 p r) * b (ix2 r q) := by
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k := funext fun a => Fin.ext (by
    match a with
    | ⟨0, _⟩ => exact k1_mm_lhs_0 _ _
    | ⟨1, _⟩ => exact (k1_mm_lhs_1 _ _).trans hk)
  have er : dot_S512x512_S512x256_S512x256_1_0_0_1_n_n.rhsIdx (ix2 p q) ((contrEquiv1 dot_S512x512_S512x256_S512x256_1_0_0_1_n_n 512 rfl rfl).symm k) = ix2 k q := funext fun a => Fin.ext (by
    match a with
    | ⟨0, _⟩ => exact (k1_mm_rhs_0 _ _).trans hk
    | ⟨1, _⟩ => exact k1_mm_rhs_1 _ _)
  rw [el, er]

theorem k1_pay1_apply (p : Fin 512) (q : Fin 256) : k1_pay1 (F := Ideal) (ix2 p q) = 0 := by
  unfold k1_pay1
  simp only [shapeCast_self]
  exact Ideal.ofBits_zero_f32

theorem k1_pay2_apply (v3 : Vec Ideal S512x256 .f32) (v4 : Vec Ideal S512x512 .f32) (v7 : Vec Ideal S512x256 .f32)
    (p : Fin 512) (q : Fin 256) :
    k1_pay2 (F := Ideal) v3 v4 v7 (ix2 p q) = v3 (ix2 p q) + ∑ r : Fin 512, v4 (ix2 p r) * v7 (ix2 r q) := by
  unfold k1_pay2
  simp only [shapeCast_self]
  exact congrArg (v3 (ix2 p q) + ·) (k1_mm_apply (truncf .bf16 v4 bitsLt_bf16_f32) (truncf .bf16 v7 bitsLt_bf16_f32) p q)

theorem k1_pay3_apply (v18 : Vec Ideal S512x256 .f32) (p : Fin 512) (q : Fin 256) :
    k1_pay3 (F := Ideal) v18 (ix2 p q) = FloatOps.maximumf (v18 (ix2 p q)) (Ideal.ofBits .f32 0x00000000#32) := by
  unfold k1_pay3
  rfl

end Payloads

section Blocks
variable (V : (c : Dev nD) → (b : Ref sig .tc) → Buf (Elt Ideal) ((c : Thread nD τ).loc b))

abbrev arrA1 (c : Dev nD) : Vec Ideal S8192x8192 .f32 := V c main_v12
abbrev arrM1 (c : Dev nD) : Vec Ideal S8192x256 .f32 := V c main_v13
abbrev blkA1 (c : Dev nD) (t : Fin cfg1.N) : Vec Ideal S512x512 .f32 := iblk1 V c 0 t
abbrev blkM1 (c : Dev nD) (t : Fin cfg1.N) : Vec Ideal S512x256 .f32 := iblk1 V c 1 t

def rowIx1 (I : ℕ) (p : Fin 512) : Fin 8192 := ⟨(512 * I + p.val) % 8192, Nat.mod_lt _ (by decide)⟩

theorem rowIx1_val (I : ℕ) (p : Fin 512) (h : I < 16) : (rowIx1 I p).val = 512 * I + p.val := by
  unfold rowIx1; exact Nat.mod_eq_of_lt (by have := p.isLt; omega)

theorem idx1_facts : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

theorem blkA1_apply (c : Dev nD) (t : Fin cfg1.N) (p r : Fin 512) :
    blkA1 V c t (ix2 p r) = arrA1 V c (ix2 (rowIx1 (t.val / 16) p) (rowIx1 (t.val % 16) r)) := by
  have hN : t.val < 256 := lt_of_lt_of_eq t.isLt (show cfg1.N = 256 from N_1)
  obtain ⟨e0, e1, -⟩ := idx1_facts t
  unfold blkA1 arrA1 iblk1
  rw [View.read_apply]
  show V c main_v12 _ = V c main_v12 _
  congr 1
  funext a
  apply Fin.ext
  match a with
  | ⟨0, _⟩ => show win1_0.index t (0 : Fin 2) * 512 + 1 * p.val = (rowIx1 (t.val / 16) p).val; rw [e0, rowIx1_val _ _ (by omega)]; omega
  | ⟨1, _⟩ => show win1_0.index t (1 : Fin 2) * 512 + 1 * r.val = (rowIx1 (t.val % 16) r).val; rw [e1, rowIx1_val _ _ (by omega)]; omega

theorem blkM1_apply (c : Dev nD) (t : Fin cfg1.N) (r : Fin 512) (q : Fin 256) :
    blkM1 V c t (ix2 r q) = arrM1 V c (ix2 (rowIx1 (t.val % 16) r) q) := by
  have hN : t.val < 256 := lt_of_lt_of_eq t.isLt (show cfg1.N = 256 from N_1)
  obtain ⟨-, -, e2, e3, -⟩ := idx1_facts t
  unfold blkM1 arrM1 iblk1
  rw [View.read_apply]
  show V c main_v13 _ = V c main_v13 _
  congr 1
  funext a
  apply Fin.ext
  match a with
  | ⟨0, _⟩ => show win1_1.index t (0 : Fin 2) * 512 + 1 * r.val = (rowIx1 (t.val % 16) r).val; rw [e2, rowIx1_val _ _ (by omega)]; omega
  | ⟨1, _⟩ => show win1_1.index t (1 : Fin 2) * 256 + 1 * q.val = q.val; rw [e3]; omega

def d1 (c : Dev nD) (I : ℕ) (p : Fin 512) (q : Fin 256) (k : ℕ) : EReal :=
  ∑ r : Fin 512, arrA1 V c (ix2 (rowIx1 I p) (rowIx1 k r)) * arrM1 V c (ix2 (rowIx1 k r) q)

theorem blk1_sum (c : Dev nD) (t : Fin cfg1.N) (p : Fin 512) (q : Fin 256) :
    ∑ r : Fin 512, blkA1 V c t (ix2 p r) * blkM1 V c t (ix2 r q) = d1 V c (t.val / 16) p q (t.val % 16) := by
  unfold d1
  exact Finset.sum_congr rfl fun r _ => by rw [blkA1_apply, blkM1_apply]

end Blocks

section Value

variable (V : (c : Dev nD) → (b : Ref sig .tc) → Buf (Elt Ideal) ((c : Thread nD τ).loc b))

-- each point adds its reduction block's contribution, to zero at a first step
theorem acc1_succ (c : Dev nD) (n : ℕ) (h : n < cfg1.N) (p : Fin 512) (q : Fin 256) :
    acc1 V c (n + 1) h (ix2 p q) = (if n % 16 = 0 then 0 else acc1 V c n (Nat.le_of_lt h) (ix2 p q)) + d1 V c (n / 16) p q (n % 16) := by
  show step1 V c ⟨n, h⟩ _ (ix2 p q) = _
  rw [step1_eq, k1_pay2_apply]
  refine congrArg₂ (· + ·) ?_ (blk1_sum V c ⟨n, h⟩ p q)
  by_cases h0 : n % 16 = 0
  · rw [if_pos h0, if_pos h0, k1_pay1_apply]
  · rw [if_neg h0, if_neg h0]

-- so after point n the accumulator is the running sum of the blocks 0 … n % 16
theorem acc1_eq (c : Dev nD) : ∀ (n : ℕ) (h : n < cfg1.N) (p : Fin 512) (q : Fin 256),
    acc1 V c (n + 1) h (ix2 p q) = Cert.Spec.accUpTo (d1 V c (n / 16) p q) (n % 16) := by
  intro n
  induction n with
  | zero => intro h p q; exact (acc1_succ V c 0 h p q).trans rfl
  | succ n ih =>
    intro h p q
    rw [acc1_succ]
    by_cases h0 : (n + 1) % 16 = 0
    · rw [if_pos h0, h0]; rfl
    · rw [if_neg h0, ih, show (n + 1) % 16 = n % 16 + 1 by omega, show (n + 1) / 16 = n / 16 by omega]; rfl

def g1 (c : Dev nD) (P : Fin 8192) (f : Fin 256) : EReal :=
  FloatOps.maximumf (∑ r : Fin 8192, arrA1 V c (ix2 P r) * arrM1 V c (ix2 r f)) (Ideal.ofBits .f32 0x00000000#32)

def G1 (c : Dev nD) : Vec Ideal S8192x256 .f32 := fun i => g1 V c (i 0) (i 1)

theorem d1_sum (c : Dev nD) (I : ℕ) (p : Fin 512) (q : Fin 256) :
    ∑ k : Fin 16, d1 V c I p q k.val = ∑ r : Fin 8192, arrA1 V c (ix2 (rowIx1 I p) r) * arrM1 V c (ix2 r q) := by
  rw [← Cert.Spec.sum_blocks (fun j => arrA1 V c (ix2 (rowIx1 I p) j) * arrM1 V c (ix2 j q))]
  unfold d1
  refine Finset.sum_congr rfl fun k _ => Finset.sum_congr rfl fun r _ => ?_
  have e : rowIx1 k.val r = ⟨512 * k.val + r.val, by have := k.isLt; have := r.isLt; omega⟩ := Fin.ext (rowIx1_val _ _ k.isLt)
  rw [e]

theorem flush1_entry (c : Dev nD) (t : Fin cfg1.N) (h15 : t.val % 16 = 15) (p : Fin 512) (q : Fin 256) :
    out1 V c t (ix2 p q) = g1 V c (rowIx1 (t.val / 16) p) q := by
  rw [out1_eq V c t h15, k1_pay3_apply, acc1_eq V c t.val t.isLt p q, h15, Cert.Spec.accUpTo_fin16, d1_sum]
  rfl

theorem blk1_2_emb (t : Fin cfg1.N) (p : Fin 512) (q : Fin 256) :
    ((cfg1.win 2).blk t).view.emb (ix2 p q) = ix2 (rowIx1 (t.val / 16) p) q := by
  have hN : t.val < 256 := lt_of_lt_of_eq t.isLt (show cfg1.N = 256 from N_1)
  obtain ⟨-, -, -, -, e4, e5⟩ := idx1_facts t
  funext a
  apply Fin.ext
  match a with
  | ⟨0, _⟩ => show win1_2.index t (0 : Fin 2) * 512 + 1 * p.val = (rowIx1 (t.val / 16) p).val; rw [e4, rowIx1_val _ _ (by omega)]; omega
  | ⟨1, _⟩ => show win1_2.index t (1 : Fin 2) * 256 + 1 * q.val = q.val; rw [e5]; omega

theorem flushed1_eq (c : Dev nD) (t : Fin cfg1.N) (hf : (cfg1.win 2).flush t = true) :
    (dat1 V c).flushed 2 t = ((cfg1.win 2).blk t).view.read (Elt Ideal) (G1 V c) := by
  have h15 : t.val % 16 = 15 := (flush1_2 t).mp hf
  show (cfg1.win 2).cut (grid1.coords t) ((dat1 V c).after 2 t) = _
  funext j
  obtain ⟨p, q, rfl⟩ : ∃ (p : Fin 512) (q : Fin 256), j = ix2 p q := ⟨j 0, j 1, eq_ix2 j⟩
  show out1 V c t (ix2 p q) = _
  refine (flush1_entry V c t h15 p q).trans ?_
  show g1 V c (rowIx1 (t.val / 16) p) q = G1 V c (((cfg1.win 2).blk t).view.emb (ix2 p q))
  rw [blk1_2_emb t p q]
  rfl

theorem mem_blk1_2 (t : Fin cfg1.N) (i : S8192x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v14).slice (win1_2.rect t)).set ↔ _
  rw [View.set_slice_whole, Rect.mem_set_unit]
  exact Iff.rfl

theorem cover1_2 (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  have hlt : 16 * ((i 0).val / 512) + 15 < cfg1.N := by rw [show cfg1.N = 256 from N_1]; omega
  refine ⟨⟨16 * ((i 0).val / 512) + 15, hlt⟩, (flush1_2 _).mpr (by dsimp only; omega), ?_⟩
  obtain ⟨-, -, -, -, e4, e5⟩ := idx1_facts ⟨16 * ((i 0).val / 512) + 15, hlt⟩
  rw [mem_blk1_2]
  intro a
  match a with
  | ⟨0, _⟩ => show win1_2.index _ (0 : Fin 2) * 512 ≤ (i 0).val ∧ (i 0).val < win1_2.index _ (0 : Fin 2) * 512 + 512; rw [e4]; dsimp only; omega
  | ⟨1, _⟩ => show win1_2.index _ (1 : Fin 2) * 256 ≤ (i 1).val ∧ (i 1).val < win1_2.index _ (1 : Fin 2) * 256 + 256; rw [e5]; omega

theorem arr1_out (c : Dev nD) (P : Fin 8192) (f : Fin 256) :
    ((dat1 (F := Ideal) V c).arrAt 2 cfg1.N : Vec Ideal S8192x256 .f32) (ix2 P f)
      = FloatOps.maximumf (∑ r : Fin 8192, arrA1 V c (ix2 P r) * arrM1 V c (ix2 r f)) (Ideal.ofBits .f32 0x00000000#32) := by
  rw [(dat1 V c).arrAt_eq_of_cover 2 (G1 V c) (flushed1_eq V c) cover1_2]
  rfl

end Value

end Cert.KernelIdeal.Hand

end
-- ==== Proof.KI.R2Value.lean ====
import proofs.«127071_j953482740188_1_alg».proof.Proof.KI.R2Frame
import proofs.«127071_j953482740188_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

section Pieces
variable {F : FTy → Type} [FloatOps F]

theorem hz2 : (![0, 0] : Fin 2 → Nat) = fun _ => 0 := funext fun a => by fin_cases a <;> rfl

section
variable {c : Dev nD} {i : grid2.Coords} {a2 : Memref sig .tc .vmem S512x512 .f32} {h2 : a2.IsWhole} {a3 a4 a5 : Memref sig .tc .vmem S512x2 .f32} {h3 : a3.IsWhole} {h4 : a4.IsWhole} {h5 : a5.IsWhole}
  {x0 : Vec F S512x512 .f32} {x1 xs : Vec F S512x2 .f32}

-- the reset's store, read back whole, then one covering store
theorem rdA2 {hc0 : cond2_0 i} {hc1 : ¬cond2_1 i} : rd2 (kernelRun2_A c i a2 h2 a3 h3 a4 h4 a5 h5 hc0 hc1 x0 x1).2.1 = k2_pay2 (k2_pay1 (F := F)) x0 x1 := by
  unfold rd2
  rw [View.read_writes_eq_canon _ _ _ (View.cover_of_tiledL _ _ tiledA2)]
  unfold kernelRun2_A
  dsimp only
  sl_unfold_words
  rw [View.canon_cons_unit_zero (S := S512x2) hz2, View.readCov_unit_zero (S := S512x2) _ hz2]
  simp only [View.readAt_eq_ld, h2.read_unread, h3.read_unread, View.ld_unit_zero (S := S512x2) hz2, View.ld_unit_zero (S := S512x512) hz2]

-- one covering store of the update
theorem rdB2 {hc0 : ¬cond2_0 i} {hc1 : ¬cond2_1 i} : rd2 (kernelRun2_B c i a2 h2 a3 h3 a4 h4 a5 h5 hc0 hc1 x0 x1 xs).2.1 = k2_pay2 xs x0 x1 := by
  unfold rd2
  rw [View.read_writes_eq_canon _ _ _ (View.cover_of_tiledL _ _ tiledB2)]
  unfold kernelRun2_B
  dsimp only
  rw [View.canon_unit_zero hz2]
  simp only [View.readAt_eq_ld, h2.read_unread, h3.read_unread, h5.read_unread, View.ld_unit_zero (S := S512x2) hz2, View.ld_unit_zero (S := S512x512) hz2]

theorem rdC2 {hc0 : ¬cond2_0 i} {hc1 : cond2_1 i} : rd2 (kernelRun2_C c i a2 h2 a3 h3 a4 h4 a5 h5 hc0 hc1 x0 x1 xs).2.1 = k2_pay2 xs x0 x1 := by
  unfold rd2
  rw [View.read_writes_eq_canon _ _ _ (View.cover_of_tiledL _ _ tiledC2)]
  unfold kernelRun2_C
  dsimp only
  sl_unfold_words
  rw [View.canon_unit_zero hz2]
  simp only [View.readAt_eq_ld, h2.read_unread, h3.read_unread, h5.read_unread, View.ld_unit_zero (S := S512x2) hz2, View.ld_unit_zero (S := S512x512) hz2]

-- the accumulator's new value, read back whole and stored
theorem rdO2 {hc0 : ¬cond2_0 i} {hc1 : cond2_1 i} : rd2 (kernelRun2_C c i a2 h2 a3 h3 a4 h4 a5 h5 hc0 hc1 x0 x1 xs).1 = k2_pay2 xs x0 x1 := by
  unfold rd2
  rw [View.read_writes_eq_canon _ _ _ (View.cover_of_tiledL _ _ tiledO2)]
  unfold kernelRun2_C
  dsimp only
  sl_unfold_words
  rw [View.canon_unit_zero hz2, View.readCov_unit_zero (S := S512x2) _ hz2]
  simp only [View.readAt_eq_ld, h2.read_unread, h3.read_unread, h5.read_unread, View.ld_unit_zero (S := S512x2) hz2, View.ld_unit_zero (S := S512x512) hz2]
end

variable (V : (c : Dev nD) → (b : Ref sig .tc) → Buf (Elt F) ((c : Thread nD τ).loc b)) (c : Dev nD) (t : Fin cfg2.N)

-- every step leaves the update of what it found (of the zero block at a first step) by the two input blocks
theorem step2_eq (xs : Vec F S512x2 .f32) :
    step2 V c t xs = k2_pay2 (if t.val % 16 = 0 then k2_pay1 else xs) (iblk2 V c 0 t) (iblk2 V c 1 t) := by
  unfold step2
  by_cases h0 : t.val % 16 = 0
  · rw [dif_pos h0, if_pos h0]; exact rdA2
  · rw [dif_neg h0, if_neg h0]
    by_cases h1 : t.val % 16 = 15
    · rw [dif_pos h1]; exact rdC2
    · rw [dif_neg h1]; exact rdB2

-- a last step stores the accumulator's new value
theorem out2_eq (h1 : t.val % 16 = 15) : out2 V c t = acc2 V c (t.val + 1) t.isLt := by
  unfold out2
  rw [dif_pos h1]
  refine rdO2.trans ?_
  show _ = step2 V c t _
  rw [step2_eq, if_neg (by omega)]

end Pieces

theorem lhs_k2_0 (i : S512x2.Idx) (q : dot_S512x512_S512x2_S512x2_1_0_0_1_n_n.contr.Idx) :
    (dot_S512x512_S512x2_S512x2_1_0_0_1_n_n.lhsIdx i q 0).val = (i 0).val := by
  unfold DotDims.lhsIdx
  rw [dif_neg (show ¬(0 : Fin S512x512.rank) ∈ dot_S512x512_S512x2_S512x2_1_0_0_1_n_n.lhsBatch by decide), dif_pos (show (0 : Fin S512x512.rank) ∈ dot_S512x512_S512x2_S512x2_1_0_0_1_n_n.lhsNonContracting by decide)]
  rfl

theorem lhs_k2_1 (i : S512x2.Idx) (q : dot_S512x512_S512x2_S512x2_1_0_0_1_n_n.contr.Idx) :
    (dot_S512x512_S512x2_S512x2_1_0_0_1_n_n.lhsIdx i q 1).val = (q ⟨0, by decide⟩).val :=
  dot_S512x512_S512x2_S512x2_1_0_0_1_n_n.lhsIdx_val_of_single rfl i q

theorem rhs_k2_0 (i : S512x2.Idx) (q : dot_S512x512_S512x2_S512x2_1_0_0_1_n_n.contr.Idx) :
    (dot_S512x512_S512x2_S512x2_1_0_0_1_n_n.rhsIdx i q 0).val = (q ⟨0, by decide⟩).val :=
  dot_S512x512_S512x2_S512x2_1_0_0_1_n_n.rhsIdx_val_of_single rfl i q

theorem rhs_k2_1 (i : S512x2.Idx) (q : dot_S512x512_S512x2_S512x2_1_0_0_1_n_n.contr.Idx) :
    (dot_S512x512_S512x2_S512x2_1_0_0_1_n_n.rhsIdx i q 1).val = (i 1).val := by
  unfold DotDims.rhsIdx
  rw [dif_neg (show ¬(1 : Fin S512x2.rank) ∈ dot_S512x512_S512x2_S512x2_1_0_0_1_n_n.rhsBatch by decide), dif_pos (show (1 : Fin S512x2.rank) ∈ dot_S512x512_S512x2_S512x2_1_0_0_1_n_n.rhsNonContracting by decide)]
  rfl

theorem matmul2_apply (a : FVec Ideal S512x512 .bf16) (b : FVec Ideal S512x2 .bf16) (p : Fin 512) (q : Fin 2) :
    matmul (F := Ideal) dot_S512x512_S512x2_S512x2_1_0_0_1_n_n none a b (constant S512x2 .f32 0x00000000#32) (ix2 p q)
      = ∑ r : Fin 512, a (ix2 p r) * b (ix2 r q) := by
  refine (Ideal.matmul_constant_zero_apply dot_S512x512_S512x2_S512x2_1_0_0_1_n_n none a b (ix2 p q)).trans ?_
  rw [← Equiv.sum_comp (contrEquiv1 dot_S512x512_S512x2_S512x2_1_0_0_1_n_n 512 rfl rfl).symm]
  refine Finset.sum_congr rfl fun k _ => ?_
  have hk := contrEquiv1_symm_val dot_S512x512_S512x2_S512x2_1_0_0_1_n_n 512 rfl rfl k
  have el : dot_S512x512_S512x2_S512x2_1_0_0_1_n_n.lhsIdx (ix2 p q) ((contrEquiv1 dot_S512x512_S512x2_S512x2_1_0_0_1_n_n 512 rfl rfl).symm k) = ix2 p k := funext fun a => Fin.ext (by
    match a with
    | ⟨0, _⟩ => exact lhs_k2_0 _ _
    | ⟨1, _⟩ => exact (lhs_k2_1 _ _).trans hk)
  have er : dot_S512x512_S512x2_S512x2_1_0_0_1_n_n.rhsIdx (ix2 p q) ((contrEquiv1 dot_S512x512_S512x2_S512x2_1_0_0_1_n_n 512 rfl rfl).symm k) = ix2 k q := funext fun a => Fin.ext (by
    match a with
    | ⟨0, _⟩ => exact (rhs_k2_0 _ _).trans hk
    | ⟨1, _⟩ => exact rhs_k2_1 _ _)
  rw [el, er]

theorem k2_pay2_apply (v3 : Vec Ideal S512x2 .f32) (v4 : Vec Ideal S512x512 .f32) (v7 : Vec Ideal S512x2 .f32) (p : Fin 512) (q : Fin 2) :
    k2_pay2 (F := Ideal) v3 v4 v7 (ix2 p q) = v3 (ix2 p q) + ∑ r : Fin 512, v4 (ix2 p r) * v7 (ix2 r q) := by
  unfold k2_pay2
  simp only [shapeCast_self]
  refine (addf_apply _ _ _).trans ?_
  refine congrArg (v3 (ix2 p q) + ·) ?_
  exact matmul2_apply _ _ p q

theorem k2_pay1_apply (p : Fin 512) (q : Fin 2) : k2_pay1 (F := Ideal) (ix2 p q) = 0 := by
  unfold k2_pay1
  simp only [shapeCast_self]
  exact Ideal.ofBits_zero_f32

theorem idx_facts2 : ∀ t : Fin cfg2.N, win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, _)

def gi (b : ℕ) (o : Fin 512) : Fin 8192 := ⟨(512 * b + o.val) % 8192, Nat.mod_lt _ (by decide)⟩

theorem gi_val (b : ℕ) (hb : b < 16) (o : Fin 512) : (gi b o).val = 512 * b + o.val := by
  have ho : o.val < 512 := o.isLt
  show (512 * b + o.val) % 8192 = _
  omega

section Value
variable (V : (c : Dev nD) → (b : Ref sig .tc) → Buf (Elt Ideal) ((c : Thread nD τ).loc b))

abbrev Aarr (c : Dev nD) : Vec Ideal S8192x8192 .f32 := V c main_v12
abbrev Marr (c : Dev nD) : Vec Ideal S8192x2 .f32 := V c main_v15
abbrev ablk (c : Dev nD) (t : Fin cfg2.N) : Vec Ideal S512x512 .f32 := iblk2 V c 0 t
abbrev mblk (c : Dev nD) (t : Fin cfg2.N) : Vec Ideal S512x2 .f32 := iblk2 V c 1 t

theorem ablk_apply (c : Dev nD) (t : Fin cfg2.N) (p r : Fin 512) :
    ablk V c t (ix2 p r) = Aarr V c (ix2 (gi (t.val / 16) p) (gi (t.val % 16) r)) := by
  have hN : t.val < 256 := lt_of_lt_of_eq t.isLt (show cfg2.N = 256 from N_2)
  obtain ⟨e0, e1, -, -, -, -⟩ := idx_facts2 t
  have hp : p.val < 512 := p.isLt
  have hr : r.val < 512 := r.isLt
  show V c main_v12 (((cfg2.win 0).blk t).view.emb (ix2 p r)) = V c main_v12 (ix2 (gi (t.val / 16) p) (gi (t.val % 16) r))
  congr 1
  funext a
  apply Fin.ext
  match a with
  | ⟨0, _⟩ => show win2_0.index t (0 : Fin 2) * 512 + 1 * p.val = (512 * (t.val / 16) + p.val) % 8192; rw [e0]; omega
  | ⟨1, _⟩ => show win2_0.index t (1 : Fin 2) * 512 + 1 * r.val = (512 * (t.val % 16) + r.val) % 8192; rw [e1]; omega

theorem mblk_apply (c : Dev nD) (t : Fin cfg2.N) (r : Fin 512) (q : Fin 2) :
    mblk V c t (ix2 r q) = Marr V c (ix2 (gi (t.val % 16) r) q) := by
  have hN : t.val < 256 := lt_of_lt_of_eq t.isLt (show cfg2.N = 256 from N_2)
  obtain ⟨-, -, e2, e3, -, -⟩ := idx_facts2 t
  have hr : r.val < 512 := r.isLt
  have hq : q.val < 2 := q.isLt
  show V c main_v15 (((cfg2.win 1).blk t).view.emb (ix2 r q)) = V c main_v15 (ix2 (gi (t.val % 16) r) q)
  congr 1
  funext a
  apply Fin.ext
  match a with
  | ⟨0, _⟩ => show win2_1.index t (0 : Fin 2) * 512 + 1 * r.val = (512 * (t.val % 16) + r.val) % 8192; rw [e2]; omega
  | ⟨1, _⟩ => show win2_1.index t (1 : Fin 2) * 2 + 1 * q.val = q.val; rw [e3]; omega

def contrib (c : Dev nD) (P : Fin 8192) (q : Fin 2) (k : ℕ) : EReal :=
  ∑ r : Fin 512, Aarr V c (ix2 P (gi k r)) * Marr V c (ix2 (gi k r) q)

theorem step_sum (c : Dev nD) (t : Fin cfg2.N) (p : Fin 512) (q : Fin 2) :
    ∑ r : Fin 512, ablk V c t (ix2 p r) * mblk V c t (ix2 r q) = contrib V c (gi (t.val / 16) p) q (t.val % 16) := by
  unfold contrib
  refine Finset.sum_congr rfl fun r _ => ?_
  rw [ablk_apply, mblk_apply]

-- each point adds its reduction block's contribution, to zero at a first step
theorem acc_succ (c : Dev nD) (n : ℕ) (h : n < cfg2.N) (p : Fin 512) (q : Fin 2) :
    acc2 V c (n + 1) h (ix2 p q) = (if n % 16 = 0 then 0 else acc2 V c n (Nat.le_of_lt h) (ix2 p q)) + contrib V c (gi (n / 16) p) q (n % 16) := by
  show step2 V c ⟨n, h⟩ _ (ix2 p q) = _
  rw [step2_eq, k2_pay2_apply]
  refine congrArg₂ (· + ·) ?_ (step_sum V c ⟨n, h⟩ p q)
  by_cases h0 : n % 16 = 0
  · rw [if_pos h0, if_pos h0, k2_pay1_apply]
  · rw [if_neg h0, if_neg h0]

-- so after point n the accumulator is the running sum of the blocks 0 … n % 16
theorem acc_eq (c : Dev nD) : ∀ (n : ℕ) (h : n < cfg2.N) (p : Fin 512) (q : Fin 2),
    acc2 V c (n + 1) h (ix2 p q) = Cert.Spec.accUpTo (contrib V c (gi (n / 16) p) q) (n % 16) := by
  intro n
  induction n with
  | zero => intro h p q; exact (acc_succ V c 0 h p q).trans rfl
  | succ n ih =>
    intro h p q
    rw [acc_succ]
    by_cases h0 : (n + 1) % 16 = 0
    · rw [if_pos h0, h0]; rfl
    · rw [if_neg h0, ih, show (n + 1) % 16 = n % 16 + 1 by omega, show (n + 1) / 16 = n / 16 by omega]; rfl

theorem contrib_sum (c : Dev nD) (P : Fin 8192) (q : Fin 2) :
    ∑ k : Fin 16, contrib V c P q k.val = ∑ j : Fin 8192, Aarr V c (ix2 P j) * Marr V c (ix2 j q) := by
  rw [← Cert.Spec.sum_blocks (fun j => Aarr V c (ix2 P j) * Marr V c (ix2 j q))]
  refine Finset.sum_congr rfl fun k _ => ?_
  unfold contrib
  refine Finset.sum_congr rfl fun r _ => ?_
  have hk : k.val < 16 := k.isLt
  have hr : r.val < 512 := r.isLt
  have e : gi k.val r = ⟨512 * k.val + r.val, by omega⟩ := Fin.ext (gi_val k.val k.isLt r)
  rw [e]

theorem out_last (c : Dev nD) (t : Fin cfg2.N) (h1 : t.val % 16 = 15) (p : Fin 512) (q : Fin 2) :
    out2 V c t (ix2 p q) = ∑ j : Fin 8192, Aarr V c (ix2 (gi (t.val / 16) p) j) * Marr V c (ix2 j q) := by
  rw [out2_eq V c t h1, acc_eq V c t.val t.isLt p q, h1, Cert.Spec.accUpTo_fin16, contrib_sum]

def G2 (c : Dev nD) : Vec Ideal S8192x2 .f32 := fun i => ∑ j : Fin 8192, Aarr V c (ix2 (i 0) j) * Marr V c (ix2 j (i 1))

theorem flushed2_eq (c : Dev nD) (t : Fin cfg2.N) (hf : (cfg2.win 2).flush t = true) :
    (dat2 V c).flushed 2 t = ((cfg2.win 2).blk t).view.read (Elt Ideal) (G2 V c) := by
  have h1 : t.val % 16 = 15 := (flush2_2 t).mp hf
  have hN : t.val < 256 := lt_of_lt_of_eq t.isLt (show cfg2.N = 256 from N_2)
  obtain ⟨-, -, -, -, e4, e5⟩ := idx_facts2 t
  show (cfg2.win 2).cut (grid2.coords t) ((dat2 V c).after 2 t) = _
  funext j
  obtain ⟨p, q, rfl⟩ : ∃ (p : Fin 512) (q : Fin 2), j = ix2 p q := ⟨j 0, j 1, eq_ix2 j⟩
  have hp : p.val < 512 := p.isLt
  have hq : q.val < 2 := q.isLt
  have e : ((cfg2.win 2).blk t).view.emb (ix2 p q) = ix2 (gi (t.val / 16) p) q := funext fun a => Fin.ext (by
    match a with
    | ⟨0, _⟩ => show win2_2.index t (0 : Fin 2) * 512 + 1 * p.val = (512 * (t.val / 16) + p.val) % 8192; rw [e4]; omega
    | ⟨1, _⟩ => show win2_2.index t (1 : Fin 2) * 2 + 1 * q.val = q.val; rw [e5]; omega)
  show out2 V c t (ix2 p q) = G2 V c (((cfg2.win 2).blk t).view.emb (ix2 p q))
  rw [e]
  exact out_last V c t h1 p q

theorem mem_blk2 (t : Fin cfg2.N) (i : S8192x2.Idx) :
    i ∈ ((cfg2.win 2).blk t).view.set ↔ ∀ a : Fin 2, win2_2.index t a * S512x2.size a ≤ (i a).val ∧ (i a).val < win2_2.index t a * S512x2.size a + S512x2.size a := by
  show i ∈ ((View.whole main_v16).slice (win2_2.rect t)).set ↔ _
  rw [View.set_slice_whole, Rect.mem_set_unit]
  exact Iff.rfl

theorem cover2 (i : S8192x2.Idx) : ∃ t : Fin cfg2.N, (cfg2.win 2).flush t = true ∧ i ∈ ((cfg2.win 2).blk t).view.set := by
  have hi0 : (i 0).val < 8192 := (i 0).isLt
  have hi1 : (i 1).val < 2 := (i 1).isLt
  obtain ⟨t, ht⟩ : ∃ t : Fin cfg2.N, t.val = 16 * ((i 0).val / 512) + 15 :=
    ⟨⟨16 * ((i 0).val / 512) + 15, lt_of_lt_of_eq (by omega) N_2.symm⟩, rfl⟩
  obtain ⟨-, -, -, -, e4, e5⟩ := idx_facts2 t
  refine ⟨t, (flush2_2 t).mpr (by rw [ht]; omega), ?_⟩
  rw [mem_blk2]
  intro a
  match a with
  | ⟨0, _⟩ =>
    show win2_2.index t (0 : Fin 2) * 512 ≤ (i 0).val ∧ (i 0).val < win2_2.index t (0 : Fin 2) * 512 + 512
    rw [e4, ht]; omega
  | ⟨1, _⟩ =>
    show win2_2.index t (1 : Fin 2) * 2 ≤ (i 1).val ∧ (i 1).val < win2_2.index t (1 : Fin 2) * 2 + 2
    rw [e5]; omega

abbrev Oarr (c : Dev nD) : Vec Ideal S8192x2 .f32 := (dat2 (F := Ideal) V c).arrAt 2 cfg2.N

theorem arr2_out (c : Dev nD) (P : Fin 8192) (f : Fin 2) :
    Oarr V c (ix2 P f) = ∑ r : Fin 8192, Aarr V c (ix2 P r) * Marr V c (ix2 r f) :=
  congrFun ((dat2 V c).arrAt_eq_of_cover 2 (G2 V c) (flushed2_eq V c) cover2) (ix2 P f)

end Value

end Cert.KernelIdeal.Hand

end
-- ==== Proof.KI.Bridge12.lean ====
import proofs.«127071_j953482740188_1_alg».proof.Proof.KI.HostGlue
import proofs.«127071_j953482740188_1_alg».proof.Proof.KI.R1Value
import proofs.«127071_j953482740188_1_alg».proof.Proof.KI.R2Value
import proofs.«127071_j953482740188_1_alg».proof.Proof.RefValue

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.ReadP Cert.ReferenceIdeal.RefValue
open scoped BigOperators

variable (m : (ℓ : Loc nD τ sig) → Buf (Elt Ideal) ℓ) (c : Dev nD)

theorem o12_eq (h10 : o10 m c = val_main_v26 (F := Ideal) (m ((c.tc : Thread nD τ).loc main_arg1))) :
    o12 m c = val_main_v29 (F := Ideal) (m ((c.tc : Thread nD τ).loc main_arg0)) (m ((c.tc : Thread nD τ).loc main_arg1)) (m ((c.tc : Thread nD τ).loc main_arg2)) := by
  funext i
  obtain ⟨P, f, rfl⟩ : ∃ (P : Fin 8192) (f : Fin 256), i = ix2 P f := ⟨i 0, i 1, eq_ix2 i⟩
  have hA : arrA1 (E1 m) c = val_main_v26 (F := Ideal) (m ((c.tc : Thread nD τ).loc main_arg1)) := (E1_v12 m c).trans h10
  have hM : arrM1 (E1 m) c = val_main_v27 (F := Ideal) (m ((c.tc : Thread nD τ).loc main_arg0)) (m ((c.tc : Thread nD τ).loc main_arg2)) := E1_v13 m c
  refine (arr1_out (E1 m) c P f).trans ?_
  rw [v29_at, v28_at, hA, hM]

theorem o14_eq (h10 : o10 m c = val_main_v26 (F := Ideal) (m ((c.tc : Thread nD τ).loc main_arg1))) :
    o14 m c = val_main_v31 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨P, f, rfl⟩ : ∃ (P : Fin 8192) (f : Fin 2), i = ix2 P f := ⟨i 0, i 1, eq_ix2 i⟩
  have hA : Aarr (E2 m) c = val_main_v26 (F := Ideal) (m ((c.tc : Thread nD τ).loc main_arg1)) := (E2_v12 m c).trans h10
  have hM : Marr (E2 m) c = val_main_v30 (F := Ideal) (m ((c.tc : Thread nD τ).loc main_arg0)) (m ((c.tc : Thread nD τ).loc main_arg1)) (m ((c.tc : Thread nD τ).loc main_arg2)) (m ((c.tc : Thread nD τ).loc main_arg3)) := by
    refine (E2_v15 m c).trans ?_
    rw [o12_eq m c h10]
    rfl
  show Oarr (E2 m) c (ix2 P f) = _
  rw [arr2_out (E2 m) c P f, v31_at, hA, hM]

theorem kernel_result_of (h10 : o10 m c = val_main_v26 (F := Ideal) (m ((c.tc : Thread nD τ).loc main_arg1))) :
    V16 m (outs m) c main_v20
      = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [result_eq, o14_eq m c h10, v35_eq_lsm]

end Cert.KernelIdeal.Hand

end
-- ==== Proof.KI.R0Value.lean ====
import proofs.«127071_j953482740188_1_alg».proof.Proof.KI.R0Frame
import proofs.«127071_j953482740188_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

theorem lhs_dot0_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_dot0_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q

theorem rhs_dot0_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot0_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem bcol0_apply (x : Vec Ideal S512x1 .f32) (p r : Fin 512) :
    broadcastTo S512x512 x broadcasts_S512x1_S512x512 (ix2 p r) = x (ix2 p 0) :=
  broadcastTo_apply x broadcasts_S512x1_S512x512 (ix2 p r) (ix2 p 0) fun a => by
    match a with
    | ⟨0, _⟩ => rfl
    | ⟨1, _⟩ => rfl

theorem brow0_apply (x : Vec Ideal S1x512 .f32) (p r : Fin 512) :
    broadcastTo S512x512 x broadcasts_S1x512_S512x512 (ix2 p r) = x (ix2 0 r) :=
  broadcastTo_apply x broadcasts_S1x512_S512x512 (ix2 p r) (ix2 0 r) fun a => by
    match a with
    | ⟨0, _⟩ => rfl
    | ⟨1, _⟩ => rfl

-- the accumulate payload at an entry: the prior value plus the row-by-column sum over the two scaled blocks
theorem k0_pay2_apply (v3 : Vec Ideal S512x1 .f32) (v5 : Vec Ideal S512x512 .f32) (v8 : Vec Ideal S1x512 .f32)
    (v12 : Vec Ideal S512x1 .f32) (v14 : Vec Ideal S512x512 .f32) (v17 : Vec Ideal S1x512 .f32)
    (v21 : Vec Ideal S512x512 .f32) (p q : Fin 512) :
    (k0_pay2 (F := Ideal) v3 v5 v8 v12 v14 v17 v21) (ix2 p q)
      = (v21 (ix2 p q) : EReal) + ∑ r : Fin 512, ((v3 (ix2 p 0) * v5 (ix2 p r)) * v8 (ix2 0 r)) * ((v12 (ix2 r 0) * v14 (ix2 r q)) * v17 (ix2 0 q)) := by
  unfold k0_pay2
  simp only [shapeCast_self, matmul]
  refine (addf_apply _ _ _).trans ?_
  refine congrArg (fun z : EReal => (v21 (ix2 p q) : EReal) + z) ?_
  refine (Ideal.matmul_constant_zero_apply dot_S512x512_S512x512_S512x512_1_0_0_1_n_n none _ _ (ix2 p q)).trans ?_
  rw [← Equiv.sum_comp (contrEquiv1 dot_S512x512_S512x512_S512x512_1_0_0_1_n_n 512 rfl rfl).symm]
  refine Finset.sum_congr rfl fun r _ => ?_
  have hk := contrEquiv1_symm_val dot_S512x512_S512x512_S512x512_1_0_0_1_n_n 512 rfl rfl r
  have el : dot_S512x512_S512x512_S512x512_1_0_0_1_n_n.lhsIdx (ix2 p q) ((contrEquiv1 dot_S512x512_S512x512_S512x512_1_0_0_1_n_n 512 rfl rfl).symm r) = ix2 p r := funext fun a => Fin.ext (by
    match a with
    | ⟨0, _⟩ => exact lhs_dot0_0 _ _
    | ⟨1, _⟩ => exact (lhs_dot0_1 _ _).trans hk)
  have er : dot_S512x512_S512x512_S512x512_1_0_0_1_n_n.rhsIdx (ix2 p q) ((contrEquiv1 dot_S512x512_S512x512_S512x512_1_0_0_1_n_n 512 rfl rfl).symm r) = ix2 r q := funext fun a => Fin.ext (by
    match a with
    | ⟨0, _⟩ => exact (rhs_dot0_0 _ _).trans hk
    | ⟨1, _⟩ => exact rhs_dot0_1 _ _)
  rw [el, er]
  simp only [truncf_apply, mulf_apply]
  rw [bcol0_apply v3 p r, brow0_apply v8 p r, bcol0_apply v12 r q, brow0_apply v17 r q]

theorem ofNat32_inj0 {A B : ℕ} (hA : A < 2 ^ 32) (hB : B < 2 ^ 32) : BitVec.ofNat 32 A = BitVec.ofNat 32 B ↔ A = B := by
  constructor
  · intro e
    have h := congrArg BitVec.toNat e
    rwa [BitVec.toNat_ofNat, BitVec.toNat_ofNat, Nat.mod_eq_of_lt hA, Nat.mod_eq_of_lt hB] at h
  · rintro rfl; rfl

theorem word_affine0 (a p : ℕ) :
    IntOp.addi (Scalar.muli (BitVec.ofNat 32 a) 512#32) (BitVec.ofNat 32 p) = BitVec.ofNat 32 (a * 512 + p) := by
  show BitVec.ofNat 32 a * BitVec.ofNat 32 512 + BitVec.ofNat 32 p = _
  rw [← BitVec.ofNat_mul, ← BitVec.ofNat_add]

theorem diag_word0 (A B : ℕ) (hA : A < 2 ^ 32) (hB : B < 2 ^ 32) :
    (FloatOps.sitofp (F := Ideal) .f32 ((IntOp.cmpi .eq (BitVec.ofNat 32 A) (BitVec.ofNat 32 B)).setWidth 32) : EReal)
      = if A = B then 1 else 0 := by
  show ((((BitVec.ofBool (BitVec.ofNat 32 A == BitVec.ofNat 32 B)).setWidth 32).toInt : ℝ) : EReal) = _
  by_cases h : A = B
  · subst h
    rw [beq_self_eq_true, if_pos rfl]
    have e : ((BitVec.ofBool true).setWidth 32 : BitVec 32).toInt = 1 := by decide
    rw [e]; simp
  · have hne : (BitVec.ofNat 32 A == BitVec.ofNat 32 B) = false :=
      beq_eq_false_iff_ne.mpr fun e => h ((ofNat32_inj0 hA hB).mp e)
    rw [hne, if_neg h]
    have e : ((BitVec.ofBool false).setWidth 32 : BitVec 32).toInt = 0 := by decide
    rw [e]; simp

-- the store payload at an entry: one half on the array's diagonal, minus one half of the scaled block, minus the accumulator
theorem k0_pay3_apply (i : grid0.Coords) (v32 : Vec Ideal S512x1 .f32) (v34 : Vec Ideal S512x512 .f32)
    (v37 : Vec Ideal S1x512 .f32) (v57 : Vec Ideal S512x512 .f32) (p q : Fin 512) :
    (k0_pay3 (F := Ideal) i v32 v34 v37 v57) (ix2 p q)
      = ((Ideal.ofBits .f32 0x3F000000#32 * (if (i 0).val * 512 + p.val = (i 1).val * 512 + q.val then (1 : EReal) else 0))
          + (Ideal.ofBits .f32 0xBF000000#32 * (((v32 (ix2 p 0) : EReal) * v34 (ix2 p q)) * v37 (ix2 0 q)))) - v57 (ix2 p q) := by
  have hi0 : (i 0).val < 16 := (i 0).isLt
  have hi1 : (i 1).val < 16 := (i 1).isLt
  unfold k0_pay3
  simp only [shapeCast_self]
  simp only [subf_apply, addf_apply, mulf_apply, broadcast_apply, sitofp_apply, extui_apply]
  rw [bcol0_apply v32 p q, brow0_apply v37 p q]
  simp only [cmpi, addi, broadcast]
  rw [iota_single_apply .tc S512x512 32 0 iota_S512x512_d0_w32 (ix2 p q),
    iota_single_apply .tc S512x512 32 1 iota_S512x512_d1_w32 (ix2 p q)]
  rw [word_affine0, word_affine0]
  have hp : ((ix2 p q : S512x512.Idx) 0).val = p.val := rfl
  have hq : ((ix2 p q : S512x512.Idx) 1).val = q.val := rfl
  rw [hp, hq, diag_word0 _ _ (by have := p.isLt; omega) (by have := q.isLt; omega)]
  rfl

theorem idx0_0 : ∀ t : Fin grid0.N, win0_0.index t (0 : Fin 2) = t.val / 256 ∧ win0_0.index t (1 : Fin 2) = t.val % 16 := by decide +kernel

theorem idx0_1 : ∀ t : Fin grid0.N, win0_1.index t (0 : Fin 2) = t.val % 16 ∧ win0_1.index t (1 : Fin 2) = t.val / 16 % 16 := by decide +kernel

theorem idx0_2 : ∀ t : Fin grid0.N, win0_2.index t (0 : Fin 2) = t.val / 256 ∧ win0_2.index t (1 : Fin 2) = t.val / 16 % 16 := by decide +kernel

theorem idx0_3 : ∀ t : Fin grid0.N, win0_3.index t (0 : Fin 2) = t.val / 256 ∧ win0_3.index t (1 : Fin 2) = 0 := by decide +kernel

theorem idx0_4 : ∀ t : Fin grid0.N, win0_4.index t (0 : Fin 2) = 0 ∧ win0_4.index t (1 : Fin 2) = t.val % 16 := by decide +kernel

theorem idx0_5 : ∀ t : Fin grid0.N, win0_5.index t (0 : Fin 2) = t.val % 16 ∧ win0_5.index t (1 : Fin 2) = 0 := by decide +kernel

theorem idx0_6 : ∀ t : Fin grid0.N, win0_6.index t (0 : Fin 2) = 0 ∧ win0_6.index t (1 : Fin 2) = t.val / 16 % 16 := by decide +kernel

theorem idx0_7 : ∀ t : Fin grid0.N, win0_7.index t (0 : Fin 2) = t.val / 256 ∧ win0_7.index t (1 : Fin 2) = t.val / 16 % 16 := by decide +kernel

theorem coords0 : ∀ t : Fin grid0.N, (grid0.coords t 0).val = t.val / 256 ∧ (grid0.coords t 1).val = t.val / 16 % 16 := by decide +kernel

section Value

variable (V : (c : Dev nD) → (b : Ref sig .tc) → Buf (Elt Ideal) ((c : Thread nD τ).loc b))

abbrev adjA0 (c : Dev nD) : Vec Ideal S8192x8192 .f32 := V c main_arg1
abbrev dRow0 (c : Dev nD) : Vec Ideal S8192x1 .f32 := V c main_v5
abbrev dCol0 (c : Dev nD) : Vec Ideal S1x8192 .f32 := V c main_v11

abbrev blk0_0 (c : Dev nD) (t : Fin cfg0.N) : Vec Ideal S512x512 .f32 := iblk0 V c 0 t
abbrev blk0_1 (c : Dev nD) (t : Fin cfg0.N) : Vec Ideal S512x512 .f32 := iblk0 V c 1 t
abbrev blk0_2 (c : Dev nD) (t : Fin cfg0.N) : Vec Ideal S512x512 .f32 := iblk0 V c 2 t
abbrev blk0_3 (c : Dev nD) (t : Fin cfg0.N) : Vec Ideal S512x1 .f32 := iblk0 V c 3 t
abbrev blk0_4 (c : Dev nD) (t : Fin cfg0.N) : Vec Ideal S1x512 .f32 := iblk0 V c 4 t
abbrev blk0_5 (c : Dev nD) (t : Fin cfg0.N) : Vec Ideal S512x1 .f32 := iblk0 V c 5 t
abbrev blk0_6 (c : Dev nD) (t : Fin cfg0.N) : Vec Ideal S1x512 .f32 := iblk0 V c 6 t

theorem blk0_0_apply (c : Dev nD) (t : Fin cfg0.N) (p : Fin 512) (q : Fin 512) (P : Fin 8192) (Q : Fin 8192) (hP : P.val = 512 * (t.val / 256) + p.val) (hQ : Q.val = 512 * (t.val % 16) + q.val) :
    blk0_0 V c t (ix2 p q) = adjA0 V c (ix2 P Q) := by
  obtain ⟨e0, e1⟩ := idx0_0 t
  unfold blk0_0 adjA0 iblk0
  rw [View.read_apply]
  show (V c main_arg1 : Vec Ideal S8192x8192 .f32) _ = (V c main_arg1 : Vec Ideal S8192x8192 .f32) _
  congr 1
  funext a; apply Fin.ext
  match a with
  | ⟨0, _⟩ => show win0_0.index t (0 : Fin 2) * 512 + 1 * p.val = P.val; rw [e0, hP]; omega
  | ⟨1, _⟩ => show win0_0.index t (1 : Fin 2) * 512 + 1 * q.val = Q.val; rw [e1, hQ]; omega

theorem blk0_1_apply (c : Dev nD) (t : Fin cfg0.N) (p : Fin 512) (q : Fin 512) (P : Fin 8192) (Q : Fin 8192) (hP : P.val = 512 * (t.val % 16) + p.val) (hQ : Q.val = 512 * (t.val / 16 % 16) + q.val) :
    blk0_1 V c t (ix2 p q) = adjA0 V c (ix2 P Q) := by
  obtain ⟨e0, e1⟩ := idx0_1 t
  unfold blk0_1 adjA0 iblk0
  rw [View.read_apply]
  show (V c main_arg1 : Vec Ideal S8192x8192 .f32) _ = (V c main_arg1 : Vec Ideal S8192x8192 .f32) _
  congr 1
  funext a; apply Fin.ext
  match a with
  | ⟨0, _⟩ => show win0_1.index t (0 : Fin 2) * 512 + 1 * p.val = P.val; rw [e0, hP]; omega
  | ⟨1, _⟩ => show win0_1.index t (1 : Fin 2) * 512 + 1 * q.val = Q.val; rw [e1, hQ]; omega

theorem blk0_2_apply (c : Dev nD) (t : Fin cfg0.N) (p : Fin 512) (q : Fin 512) (P : Fin 8192) (Q : Fin 8192) (hP : P.val = 512 * (t.val / 256) + p.val) (hQ : Q.val = 512 * (t.val / 16 % 16) + q.val) :
    blk0_2 V c t (ix2 p q) = adjA0 V c (ix2 P Q) := by
  obtain ⟨e0, e1⟩ := idx0_2 t
  unfold blk0_2 adjA0 iblk0
  rw [View.read_apply]
  show (V c main_arg1 : Vec Ideal S8192x8192 .f32) _ = (V c main_arg1 : Vec Ideal S8192x8192 .f32) _
  congr 1
  funext a; apply Fin.ext
  match a with
  | ⟨0, _⟩ => show win0_2.index t (0 : Fin 2) * 512 + 1 * p.val = P.val; rw [e0, hP]; omega
  | ⟨1, _⟩ => show win0_2.index t (1 : Fin 2) * 512 + 1 * q.val = Q.val; rw [e1, hQ]; omega

theorem blk0_3_apply (c : Dev nD) (t : Fin cfg0.N) (p : Fin 512)  (P : Fin 8192)  (hP : P.val = 512 * (t.val / 256) + p.val)  :
    blk0_3 V c t (ix2 p 0) = dRow0 V c (ix2 P 0) := by
  obtain ⟨e0, e1⟩ := idx0_3 t
  unfold blk0_3 dRow0 iblk0
  rw [View.read_apply]
  show (V c main_v5 : Vec Ideal S8192x1 .f32) _ = (V c main_v5 : Vec Ideal S8192x1 .f32) _
  congr 1
  funext a; apply Fin.ext
  match a with
  | ⟨0, _⟩ => show win0_3.index t (0 : Fin 2) * 512 + 1 * p.val = P.val; rw [e0, hP]; omega
  | ⟨1, _⟩ => show win0_3.index t (1 : Fin 2) * 1 + 1 * 0 = 0; rw [e1]

theorem blk0_4_apply (c : Dev nD) (t : Fin cfg0.N)  (q : Fin 512)  (Q : Fin 8192)  (hQ : Q.val = 512 * (t.val % 16) + q.val) :
    blk0_4 V c t (ix2 0 q) = dCol0 V c (ix2 0 Q) := by
  obtain ⟨e0, e1⟩ := idx0_4 t
  unfold blk0_4 dCol0 iblk0
  rw [View.read_apply]
  show (V c main_v11 : Vec Ideal S1x8192 .f32) _ = (V c main_v11 : Vec Ideal S1x8192 .f32) _
  congr 1
  funext a; apply Fin.ext
  match a with
  | ⟨0, _⟩ => show win0_4.index t (0 : Fin 2) * 1 + 1 * 0 = 0; rw [e0]
  | ⟨1, _⟩ => show win0_4.index t (1 : Fin 2) * 512 + 1 * q.val = Q.val; rw [e1, hQ]; omega

theorem blk0_5_apply (c : Dev nD) (t : Fin cfg0.N) (p : Fin 512)  (P : Fin 8192)  (hP : P.val = 512 * (t.val % 16) + p.val)  :
    blk0_5 V c t (ix2 p 0) = dRow0 V c (ix2 P 0) := by
  obtain ⟨e0, e1⟩ := idx0_5 t
  unfold blk0_5 dRow0 iblk0
  rw [View.read_apply]
  show (V c main_v5 : Vec Ideal S8192x1 .f32) _ = (V c main_v5 : Vec Ideal S8192x1 .f32) _
  congr 1
  funext a; apply Fin.ext
  match a with
  | ⟨0, _⟩ => show win0_5.index t (0 : Fin 2) * 512 + 1 * p.val = P.val; rw [e0, hP]; omega
  | ⟨1, _⟩ => show win0_5.index t (1 : Fin 2) * 1 + 1 * 0 = 0; rw [e1]

theorem blk0_6_apply (c : Dev nD) (t : Fin cfg0.N)  (q : Fin 512)  (Q : Fin 8192)  (hQ : Q.val = 512 * (t.val / 16 % 16) + q.val) :
    blk0_6 V c t (ix2 0 q) = dCol0 V c (ix2 0 Q) := by
  obtain ⟨e0, e1⟩ := idx0_6 t
  unfold blk0_6 dCol0 iblk0
  rw [View.read_apply]
  show (V c main_v11 : Vec Ideal S1x8192 .f32) _ = (V c main_v11 : Vec Ideal S1x8192 .f32) _
  congr 1
  funext a; apply Fin.ext
  match a with
  | ⟨0, _⟩ => show win0_6.index t (0 : Fin 2) * 1 + 1 * 0 = 0; rw [e0]
  | ⟨1, _⟩ => show win0_6.index t (1 : Fin 2) * 512 + 1 * q.val = Q.val; rw [e1, hQ]; omega

def dad (c : Dev nD) (p q : Fin 8192) : EReal :=
  (dRow0 V c (ix2 p 0) * adjA0 V c (ix2 p q)) * dCol0 V c (ix2 0 q)

def step0 (c : Dev nD) (P Q : Fin 8192) (k : ℕ) : EReal :=
  if h : k < 16 then ∑ r : Fin 512, dad V c P ⟨512 * k + r.val, by omega⟩ * dad V c ⟨512 * k + r.val, by omega⟩ Q else 0

theorem k0_pay1_apply (p q : Fin 512) : (k0_pay1 (F := Ideal)) (ix2 p q) = (0 : EReal) := by
  unfold k0_pay1
  simp only [shapeCast_self]
  exact Ideal.ofBits_zero_f32

theorem step0_eq (c : Dev nD) (t : Fin cfg0.N) (p q : Fin 512) (P Q : Fin 8192) (hP : P.val = 512 * (t.val / 256) + p.val) (hQ : Q.val = 512 * (t.val / 16 % 16) + q.val) :
    (∑ r : Fin 512, ((blk0_3 V c t (ix2 p 0) * blk0_0 V c t (ix2 p r)) * blk0_4 V c t (ix2 0 r))
        * ((blk0_5 V c t (ix2 r 0) * blk0_1 V c t (ix2 r q)) * blk0_6 V c t (ix2 0 q)))
      = step0 V c P Q (t.val % 16) := by
  have hK : t.val % 16 < 16 := Nat.mod_lt _ (by decide)
  unfold step0
  rw [dif_pos hK]
  refine Finset.sum_congr rfl fun r _ => ?_
  have hR : (⟨512 * (t.val % 16) + r.val, by omega⟩ : Fin 8192).val = 512 * (t.val % 16) + r.val := rfl
  rw [blk0_3_apply V c t p P hP, blk0_0_apply V c t p r P _ hP hR, blk0_4_apply V c t r _ hR,
    blk0_5_apply V c t r _ hR, blk0_1_apply V c t r q _ Q hR hQ, blk0_6_apply V c t q Q hQ]
  rfl

theorem after0_7 (c : Dev nD) (t : Fin cfg0.N) : (dat0 V c).after 7 t = out0 V c t := by dsimp only [dat0]

-- a step adds to the accumulator its own block's part of the contraction
theorem acc0_apply (c : Dev nD) (t : Fin cfg0.N) (s : Vec Ideal S512x512 .f32) (p q : Fin 512) (P Q : Fin 8192) (hP : P.val = 512 * (t.val / 256) + p.val) (hQ : Q.val = 512 * (t.val / 16 % 16) + q.val) :
    acc0 V c t s (ix2 p q) = (s (ix2 p q) : EReal) + step0 V c P Q (t.val % 16) :=
  (k0_pay2_apply _ _ _ _ _ _ _ p q).trans (congrArg (fun b : EReal => _ + b) (step0_eq V c t p q P Q hP hQ))

-- by induction on the point: after step k of a block the accumulator is the partial sum of steps 0 … k
theorem acc0_inv (c : Dev nD) : ∀ (n : ℕ) (hn : n < cfg0.N) (p q : Fin 512) (P Q : Fin 8192),
    P.val = 512 * (n / 256) + p.val → Q.val = 512 * (n / 16 % 16) + q.val →
    scr0 V c n hn (ix2 p q) = Cert.Spec.accUpTo (step0 V c P Q) (n % 16) := by
  intro n
  induction n with
  | zero =>
    intro hn p q P Q hP hQ
    exact (acc0_apply V c ⟨0, hn⟩ _ p q P Q hP hQ).trans (congrArg (fun a : EReal => a + _) (k0_pay1_apply p q))
  | succ n ih =>
    intro hn p q P Q hP hQ
    refine (acc0_apply V c ⟨n + 1, hn⟩ _ p q P Q hP hQ).trans ?_
    show _ + step0 V c P Q ((n + 1) % 16) = _
    by_cases h0 : (n + 1) % 16 = 0
    · rw [if_pos h0, k0_pay1_apply, h0]; rfl
    · rw [if_neg h0, ih (Nat.lt_of_succ_lt hn) p q P Q (by omega) (by omega), show (n + 1) % 16 = n % 16 + 1 by omega]; rfl

theorem sum_steps0 (c : Dev nD) (P Q : Fin 8192) :
    ∑ k : Fin 16, step0 V c P Q k.val = ∑ r : Fin 8192, dad V c P r * dad V c r Q := by
  rw [← Cert.Spec.sum_blocks (fun j => dad V c P j * dad V c j Q)]
  refine Finset.sum_congr rfl fun k _ => ?_
  unfold step0
  rw [dif_pos k.isLt]

theorem out0_flush (c : Dev nD) (t : Fin cfg0.N) (h1 : t.val % 16 = 15) (p q : Fin 512) (P Q : Fin 8192) (hP : P.val = 512 * (t.val / 256) + p.val) (hQ : Q.val = 512 * (t.val / 16 % 16) + q.val) :
    out0 V c t (ix2 p q)
      = ((Ideal.ofBits .f32 0x3F000000#32 * Cert.Spec.δ P Q) + (Ideal.ofBits .f32 0xBF000000#32 * dad V c P Q)) - ∑ r : Fin 8192, dad V c P r * dad V c r Q := by
  unfold out0
  refine (k0_pay3_apply _ _ _ _ _ p q).trans ?_
  rw [acc0_inv V c t.val t.isLt p q P Q hP hQ, h1, Cert.Spec.accUpTo_fin16, sum_steps0]
  obtain ⟨c0, c1⟩ := coords0 t
  rw [c0, c1]
  have hδ : (if t.val / 256 * 512 + p.val = t.val / 16 % 16 * 512 + q.val then (1 : EReal) else 0) = Cert.Spec.δ P Q := by
    unfold Cert.Spec.δ
    refine if_congr ⟨fun h => Fin.ext (by omega), fun h => by have := congrArg Fin.val h; omega⟩ rfl rfl
  rw [hδ]
  have hD : ((blk0_3 V c t (ix2 p 0) * blk0_2 V c t (ix2 p q)) * blk0_6 V c t (ix2 0 q)) = dad V c P Q := by
    rw [blk0_3_apply V c t p P hP, blk0_2_apply V c t p q P Q hP hQ, blk0_6_apply V c t q Q hQ]
    rfl
  exact congrArg (fun z : EReal => ((Ideal.ofBits .f32 0x3F000000#32 * Cert.Spec.δ P Q) + (Ideal.ofBits .f32 0xBF000000#32 * z)) - ∑ r : Fin 8192, dad V c P r * dad V c r Q) hD

def g0 (c : Dev nD) (P Q : Fin 8192) : EReal :=
  ((Ideal.ofBits .f32 0x3F000000#32 * Cert.Spec.δ P Q) + (Ideal.ofBits .f32 0xBF000000#32 * dad V c P Q)) - ∑ r : Fin 8192, dad V c P r * dad V c r Q

def G0 (c : Dev nD) : Vec Ideal S8192x8192 .f32 := fun i => g0 V c ⟨(i 0).val, idx2_lt0 i⟩ ⟨(i 1).val, idx2_lt1 i⟩

theorem flushed0_eq (c : Dev nD) (t : Fin cfg0.N) (hf : (cfg0.win 7).flush t = true) :
    (dat0 V c).flushed 7 t = ((cfg0.win 7).blk t).view.read (Elt Ideal) (G0 V c) := by
  have h1 : t.val % 16 = 15 := (flush0_7 t).mp hf
  have hN : t.val < 4096 := lt_of_lt_of_eq t.isLt (show cfg0.N = 4096 from N_0)
  obtain ⟨e0, e1⟩ := idx0_7 t
  show (cfg0.win 7).cut (grid0.coords t) ((dat0 V c).after 7 t) = _
  rw [after0_7]
  refine funext fun (y : S512x512.Idx) => ?_
  obtain ⟨p, q, rfl⟩ : ∃ (p q : Fin 512), y = ix2 p q := ⟨y 0, y 1, eq_ix2 y⟩
  rw [View.read_apply]
  have he : ((cfg0.win 7).blk t).view.emb (ix2 p q)
      = (ix2 (⟨512 * (t.val / 256) + p.val, by omega⟩ : Fin 8192) (⟨512 * (t.val / 16 % 16) + q.val, by omega⟩ : Fin 8192) : S8192x8192.Idx) := by
    funext a; apply Fin.ext
    match a with
    | ⟨0, _⟩ => show win0_7.index t (0 : Fin 2) * 512 + 1 * p.val = 512 * (t.val / 256) + p.val; rw [e0]; omega
    | ⟨1, _⟩ => show win0_7.index t (1 : Fin 2) * 512 + 1 * q.val = 512 * (t.val / 16 % 16) + q.val; rw [e1]; omega
  rw [he]
  exact out0_flush V c t h1 p q _ _ rfl rfl

theorem mem_blk0 (t : Fin cfg0.N) (i : S8192x8192.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v12).slice (win0_7.rect t)).set ↔ _
  rw [View.set_slice_whole, Rect.mem_set_unit]
  exact Iff.rfl

theorem cover0 (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  have hN : cfg0.N = 4096 := N_0
  have ht : 256 * ((i 0).val / 512) + 16 * ((i 1).val / 512) + 15 < cfg0.N := by rw [hN]; omega
  have hv : (⟨256 * ((i 0).val / 512) + 16 * ((i 1).val / 512) + 15, ht⟩ : Fin cfg0.N).val = 256 * ((i 0).val / 512) + 16 * ((i 1).val / 512) + 15 := rfl
  refine ⟨⟨256 * ((i 0).val / 512) + 16 * ((i 1).val / 512) + 15, ht⟩, (flush0_7 _).mpr (by rw [hv]; omega), ?_⟩
  obtain ⟨e0, e1⟩ := idx0_7 ⟨256 * ((i 0).val / 512) + 16 * ((i 1).val / 512) + 15, ht⟩
  rw [hv] at e0 e1
  rw [mem_blk0]
  intro a
  match a with
  | ⟨0, _⟩ =>
    show win0_7.index _ (0 : Fin 2) * 512 ≤ (i 0).val ∧ (i 0).val < win0_7.index _ (0 : Fin 2) * 512 + 512
    rw [e0]; omega
  | ⟨1, _⟩ =>
    show win0_7.index _ (1 : Fin 2) * 512 ≤ (i 1).val ∧ (i 1).val < win0_7.index _ (1 : Fin 2) * 512 + 512
    rw [e1]; omega

-- every entry lies in a block, and the block's last step stores it
theorem arr0_out (c : Dev nD) (P Q : Fin 8192) :
    ((dat0 (F := Ideal) V c).arrAt 7 cfg0.N : Vec Ideal S8192x8192 .f32) (ix2 P Q)
      = ((Ideal.ofBits .f32 0x3F000000#32 * Cert.Spec.δ P Q) + (Ideal.ofBits .f32 0xBF000000#32 * dad V c P Q)) - ∑ r : Fin 8192, dad V c P r * dad V c r Q := by
  rw [(dat0 V c).arrAt_eq_of_cover 7 (G0 V c) (fun t hf => flushed0_eq V c t hf) cover0]
  rfl

end Value

end Cert.KernelIdeal.Hand

end
-- ==== Proof.KI.Bridge.lean ====
import proofs.«127071_j953482740188_1_alg».proof.Proof.KI.Bridge12
import proofs.«127071_j953482740188_1_alg».proof.Proof.KI.R0Value

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.ReadP Cert.ReferenceIdeal.RefValue
open scoped BigOperators

variable (m : (ℓ : Loc nD τ sig) → Buf (Elt Ideal) ℓ) (c : Dev nD)

theorem o10_eq (hfin : ∀ i, ∃ r : ℝ, (m ((c.tc : Thread nD τ).loc main_arg1)) i = (r : EReal)) :
    o10 m c = val_main_v26 (F := Ideal) (m ((c.tc : Thread nD τ).loc main_arg1)) := by
  funext i
  obtain ⟨P, Q, rfl⟩ : ∃ (P : Fin 8192) (Q : Fin 8192), i = ix2 P Q := ⟨i 0, i 1, eq_ix2 i⟩
  have hd : ∀ p q : Fin 8192, dad (E0 m) c p q = dadR (m ((c.tc : Thread nD τ).loc main_arg1)) p q := fun p q => by
    have h5 : dRow0 (E0 m) c (ix2 p 0) = val_main_v4 (F := Ideal) (m ((c.tc : Thread nD τ).loc main_arg1)) (ix1 p) := E0_v5_at m c p
    have h11 : dCol0 (E0 m) c (ix2 0 q) = val_main_v9 (F := Ideal) (m ((c.tc : Thread nD τ).loc main_arg1)) (ix1 q) := E0_v11_at m c q
    have hA : adjA0 (E0 m) c = m ((c.tc : Thread nD τ).loc main_arg1) := E0_arg1 m c
    unfold dad dadR
    rw [h5, h11, hA]
  refine (arr0_out (E0 m) c P Q).trans ?_
  rw [v26_at _ hfin P Q]
  simp only [hd]

theorem kernel_result (hfin : ∀ i, ∃ r : ℝ, (m ((c.tc : Thread nD τ).loc main_arg1)) i = (r : EReal)) :
    V16 m (outs m) c main_v20
      = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  kernel_result_of m c (o10_eq m c hfin)

end Cert.KernelIdeal.Hand

end
-- ==== Proof.RefFinite.lean ====
import proofs.«127071_j953482740188_1_alg».proof.Proof.Gen.Pre_finite_inputs
import proofs.«127071_j953482740188_1_alg».proof.Proof.Spec
import Idealize.ShloMosaic.Lib.ReduceAll
import Idealize.ShloMosaic.Lib.ValueIdx
import Idealize.ShloMosaic.PureOps.Ideal.Laws

noncomputable section

namespace Cert.ReferenceIdeal.RefValue

open Idealize.ShloMosaic Idealize.ShloMosaic.ValueIdx
open scoped BigOperators

instance subsingleton_scalar_idx : Subsingleton Cert.Pre_finite_inputs.S_.Idx :=
  ⟨fun a b => funext fun d => d.elim0⟩

theorem adj_finite (a0 : FVec Ideal Cert.Pre_finite_inputs.S8192x512 .f32) (a1 : FVec Ideal Cert.Pre_finite_inputs.S8192x8192 .f32)
    (a2 : FVec Ideal Cert.Pre_finite_inputs.S512x256 .f32) (a3 : FVec Ideal Cert.Pre_finite_inputs.S256x2 .f32)
    (a4 : FVec Ideal Cert.Pre_finite_inputs.S2 .f32)
    (h : Cert.Pre_finite_inputs.fn (F := Ideal) a0 a1 a2 a3 a4 = fun _ => 1#1) :
    ∀ i, ∃ r : ℝ, a1 i = (r : EReal) := by
  intro i
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).2
  have e := Host.reduce_andi_all _ _ _ _ _ h4 i
  have e' : Ideal.cmp .olt (max (a1 i) (-(a1 i))) (Ideal.ofBits .f32 0x7F800000#32) = 1#1 := e
  rw [Cert.Spec.ofBits_pos_inf] at e'
  generalize a1 i = x at e' ⊢
  induction x using EReal.rec with
  | bot => simp [Ideal.cmp] at e'
  | coe r => exact ⟨r, rfl⟩
  | top => simp [Ideal.cmp] at e'

end Cert.ReferenceIdeal.RefValue

end
-- ==== Proof.lean ====
/-
  A graph-convolution kernel of three calls against its plain reference. With D = d_row·adj·d_col the kernel forms
  adj_f = 1/2·I − 1/2·D − D·D block by block and twice multiplies it, sixteen blocks at a time, by a tall matrix; the
  reference forms (1/2·I − D)·(I + D) and whole products. On finite adj the two expansions agree entry by entry, and a
  sum taken in sixteen blocks is the whole sum; the operations around the calls are the reference's own.
-/
import proofs.«127071_j953482740188_1_alg».proof.Defs
import proofs.«127071_j953482740188_1_alg».proof.Proof.Gen.Kernel
import proofs.«127071_j953482740188_1_alg».proof.Proof.Gen.Kernel.Skeleton
import proofs.«127071_j953482740188_1_alg».proof.Proof.Gen.Kernel.Launch
import proofs.«127071_j953482740188_1_alg».proof.Proof.Gen.Kernel.Regions
import proofs.«127071_j953482740188_1_alg».proof.Proof.Gen.Kernel.Points
import proofs.«127071_j953482740188_1_alg».proof.Proof.Gen.KernelIdeal
import proofs.«127071_j953482740188_1_alg».proof.Proof.Gen.KernelIdeal.Skeleton
import proofs.«127071_j953482740188_1_alg».proof.Proof.Gen.KernelIdeal.Launch
import proofs.«127071_j953482740188_1_alg».proof.Proof.Gen.KernelIdeal.Regions
import proofs.«127071_j953482740188_1_alg».proof.Proof.Gen.KernelIdeal.Points
import proofs.«127071_j953482740188_1_alg».proof.Proof.Gen.ReferenceIdeal
import proofs.«127071_j953482740188_1_alg».proof.Proof.Gen.Pre_finite_inputs
import proofs.«127071_j953482740188_1_alg».proof.Proof.K.Segs
import proofs.«127071_j953482740188_1_alg».proof.Proof.KI.Segs
import proofs.«127071_j953482740188_1_alg».proof.Proof.KI.RunValue
import proofs.«127071_j953482740188_1_alg».proof.Proof.KI.Bridge
import proofs.«127071_j953482740188_1_alg».proof.Proof.RefRun
import proofs.«127071_j953482740188_1_alg».proof.Proof.RefRead
import proofs.«127071_j953482740188_1_alg».proof.Proof.RefValue
import proofs.«127071_j953482740188_1_alg».proof.Proof.RefFinite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the reference's result term of the arguments; the kernel's needs adj finite, which the precondition gives. -/
theorem algebraic : Cert.algebraic_KernelIdeal_ReferenceIdeal := by
  intro m ρ m' ρ' hpre hagree
  have hfin : ∀ c : Dev Cert.KernelIdeal.nD, ∀ i, ∃ r : ℝ,
      m ((c.tc : Thread Cert.KernelIdeal.nD Cert.KernelIdeal.τ).loc Cert.KernelIdeal.main_arg1) i = (r : EReal) :=
    fun c => Cert.ReferenceIdeal.RefValue.adj_finite _ _ _ _ _ (hpre c)
  refine ⟨fun c => Cert.ReferenceIdeal.ReadP.val_main_v35 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono
      (fun r h c => ⟨(h c).1.trans (Cert.KernelIdeal.Hand.kernel_result m c (hfin c)), (h c).2⟩)
      (Cert.KernelIdeal.Hand.run_value m ρ)
  · refine (θ_run (Cert.ReferenceIdeal.defs (F := Ideal)) _ _).mono (fun r h c => ⟨?_, (h c).2⟩)
      (Cert.ReferenceIdeal.ValueP.run (F := Ideal) m' ρ')
    rw [(h c).1, Cert.ReferenceIdeal.ReadP.val_main_v35_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
